-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S3x64x64 : Shape := ⟨3, ![3, 64, 64]⟩
abbrev S3x64 : Shape := ⟨2, ![3, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg1 main_v69
  let main_c_27 : IVec S_ 32 := constantI S_ 32 50000#32
  let main_v71 : IVec S2x800000 32 := broadcastInDim S2x800000 ![] bcast_S_S2x800000 main_c_27
  let main_v72 : IVec S2x800000 1 := cmpi .slt main_arg1 main_v71
  let main_v73 : IVec S2x800000 1 := andi main_v70 main_v72
  let main_c_28 : IVec S_ 1 := constantI S_ 1 1#1
  let main_v74 : IVec S_ 1 := (fun x v => Host.reduce IntOp.andi x v reducesTo_S2x800000_S_d0_1 h_S_) main_v73 main_c_28
  let main_v75 : IVec S_ 1 := andi main_v68 main_v74
  main_v75

def fn_part3 {F : FTy → Type} [FloatOps F] (main_arg1 : IVec S2x800000 32) (main_arg12 : FVec F S3x64 .f32) (main_arg13 : FVec F S3x64x64 .f32) (main_arg14 : FVec F S3x64 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S3x64 .f32 := Host.absf main_arg12
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64x64 .f32 := Host.absf main_arg13
  let main_cst_22 : FVec F S_ .f32 := constant S_ .f32 0x7F800000#32
  let main_v60 : FVec F S3x64x64 .f32 := broadcastInDim S3x64x64 ![] bcast_S_S3x64x64 main_cst_22
  let main_v61 : IVec S3x64x64 1 := cmpf .olt main_v59 main_v60
  let main_c_23 : IVec S_ 1 := constantI S_ 1 1#1
  let main_v62 : IVec S_ 1 := (fun x v => Host.reduce IntOp.andi x v reducesTo_S3x64x64_S_d0_1_2 h_S_) main_v61 main_c_23
  let main_v63 : IVec S_ 1 := andi main_v58 main_v62
  let main_v64 : FVec F S3x64 .f32 := Host.absf main_arg14
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg1 main_v63 main_v67

def fn_part2 {F : FTy → Type} [FloatOps F] (main_arg1 : IVec S2x800000 32) (main_arg8 : FVec F S3x64 .f32) (main_arg9 : FVec F S3x64x64 .f32) (main_arg10 : FVec F S3x64 .f32) (main_arg11 : FVec F S3x64x64 .f32) (main_arg12 : FVec F S3x64 .f32) (main_arg13 : FVec F S3x64x64 .f32) (main_arg14 : FVec F S3x64 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64x64 .f32 := Host.absf main_arg9
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64x64 .f32 := Host.absf main_arg11
  let main_cst_18 : FVec F S_ .f32 := constant S_ .f32 0x7F800000#32
  let main_v50 : FVec F S3x64x64 .f32 := broadcastInDim S3x64x64 ![] bcast_S_S3x64x64 main_cst_18
  fn_part3 (F := F) main_arg1 main_arg12 main_arg13 main_arg14 main_v48 main_v49 main_v50

def fn_part1 {F : FTy → Type} [FloatOps F] (main_arg1 : IVec S2x800000 32) (main_arg5 : FVec F S3x64x64 .f32) (main_arg6 : FVec F S3x64 .f32) (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S3x64x64 .f32) (main_arg14 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x64 .f32) (main_arg1 : IVec S2x800000 32) (main_arg2 : FVec F S800000x64 .f32) (main_arg3 : FVec F S3x64x64 .f32) (main_arg4 : FVec F S3x64x64 .f32) (main_arg5 : FVec F S3x64x64 .f32) (main_arg6 : FVec F S3x64 .f32) (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S3x64x64 .f32) (main_arg14 : FVec F S3x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64x64 : Shape := ⟨3, ![1, 64, 64]⟩
abbrev S64x64 : Shape := ⟨2, ![64, 64]⟩
abbrev S2000x64 : Shape := ⟨2, ![2000, 64]⟩
abbrev S1 : Shape := ⟨1, ![1]⟩
abbrev S1x1 : Shape := ⟨2, ![1, 1]⟩
abbrev S6400x64 : Shape := ⟨2, ![6400, 64]⟩
abbrev S1x64 : Shape := ⟨2, ![1, 64]⟩
abbrev S64 : Shape := ⟨1, ![64]⟩

abbrev nBuf : Space → Nat
  | .hbm => 299
  | .vmem => 90
  | .smem => 0
  | _ => 0

abbrev hbmTy0_0 (i : Nat) : BufTy := match i % 128 with
  | 0 => ⟨S50000x64, .f32⟩
  | 1 => ⟨S2x800000, .i32⟩
  | 2 => ⟨S800000x64, .f32⟩
  | 3 => ⟨S3x64x64, .f32⟩
  | 4 => ⟨S3x64x64, .f32⟩
  | 5 => ⟨S3x64x64, .f32⟩
  | 6 => ⟨S3x64, .f32⟩
  | 7 => ⟨S3x64x64, .f32⟩
  | 8 => ⟨S3x64, .f32⟩
  | 9 => ⟨S3x64x64, .f32⟩
  | 10 => ⟨S3x64, .f32⟩
  | 11 => ⟨S3x64x64, .f32⟩
  | 12 => ⟨S3x64, .f32⟩
  | 13 => ⟨S3x64x64, .f32⟩
  | 14 => ⟨S3x64, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S1x64x64, .f32⟩
  | 34 => ⟨S64x64, .f32⟩
  | 35 => ⟨S50000x64, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S1, .i32⟩
  | 45 => ⟨S_, .i32⟩
  | 46 => ⟨S800000x1, .i32⟩
  | 47 => ⟨S800000x1, .i1⟩
  | 48 => ⟨S1x1, .i32⟩
  | 49 => ⟨S800000x1, .i32⟩
  | 50 => ⟨S800000x1, .i1⟩
  | 51 => ⟨S800000x1, .i1⟩
  | 52 => ⟨S_, .i1⟩
  | 53 => ⟨S800000, .i1⟩
  | 54 => ⟨S800000x64, .f32⟩
  | 55 => ⟨S800000x64, .i1⟩
  | 56 => ⟨S_, .f32⟩
  | 57 => ⟨S800000x64, .f32⟩
  | 58 => ⟨S800000x64, .f32⟩
  | 59 => ⟨S1x64x64, .f32⟩
  | 60 => ⟨S64x64, .f32⟩
  | 61 => ⟨S800000x64, .f32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S50000x64, .f32⟩
  | 68 => ⟨S50000x64, .f32⟩
  | 69 => ⟨S1x64x64, .f32⟩
  | 70 => ⟨S64x64, .f32⟩
  | 71 => ⟨S1x64, .f32⟩
  | 72 => ⟨S64, .f32⟩
  | 73 => ⟨S1x64x64, .f32⟩
  | 74 => ⟨S64x64, .f32⟩
  | 75 => ⟨S1x64, .f32⟩
  | 76 => ⟨S64, .f32⟩
  | 77 => ⟨S1x64x64, .f32⟩
  | 78 => ⟨S64x64, .f32⟩
  | 79 => ⟨S1x64, .f32⟩
  | 80 => ⟨S64, .f32⟩
  | 81 => ⟨S1x64, .f32⟩
  | 82 => ⟨S1x64, .f32⟩
  | 83 => ⟨S1x64, .f32⟩
  | 84 => ⟨S50000x64, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S1, .i32⟩
  | 96 => ⟨S_, .i32⟩
  | 97 => ⟨S800000x1, .i32⟩
  | 98 => ⟨S800000x1, .i1⟩
  | 99 => ⟨S1x1, .i32⟩
  | 100 => ⟨S800000x1, .i32⟩
  | 101 => ⟨S800000x1, .i1⟩
  | 102 => ⟨S800000x1, .i1⟩
  | 103 => ⟨S_, .i1⟩
  | 104 => ⟨S800000, .i1⟩
  | 105 => ⟨S800000x64, .f32⟩
  | 106 => ⟨S800000x64, .i1⟩
  | 107 => ⟨S_, .f32⟩
  | 108 => ⟨S800000x64, .f32⟩
  | 109 => ⟨S800000x64, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S1, .i32⟩
  | 119 => ⟨S_, .i32⟩
  | 120 => ⟨S800000x1, .i32⟩
  | 121 => ⟨S800000x1, .i1⟩
  | 122 => ⟨S1x1, .i32⟩
  | 123 => ⟨S800000x1, .i32⟩
  | 124 => ⟨S800000x1, .i1⟩
  | 125 => ⟨S800000x1, .i1⟩
  | 126 => ⟨S_, .i1⟩
  | 127 => ⟨S800000, .i1⟩
  | _ => ⟨S50000x64, .f32⟩

abbrev hbmTy0_1 (i : Nat) : BufTy := match i % 128 with
  | 0 => ⟨S800000x64, .f32⟩
  | 1 => ⟨S800000x64, .i1⟩
  | 2 => ⟨S_, .f32⟩
  | 3 => ⟨S800000x64, .f32⟩
  | 4 => ⟨S800000x64, .f32⟩
  | 5 => ⟨S800000x64, .f32⟩
  | 6 => ⟨S1x64x64, .f32⟩
  | 7 => ⟨S64x64, .f32⟩
  | 8 => ⟨S1x64, .f32⟩
  | 9 => ⟨S64, .f32⟩
  | 10 => ⟨S1x64x64, .f32⟩
  | 11 => ⟨S64x64, .f32⟩
  | 12 => ⟨S1x64, .f32⟩
  | 13 => ⟨S64, .f32⟩
  | 14 => ⟨S1x64, .f32⟩
  | 15 => ⟨S1x64, .f32⟩
  | 16 => ⟨S800000x64, .f32⟩
  | 17 => ⟨S1x64x64, .f32⟩
  | 18 => ⟨S64x64, .f32⟩
  | 19 => ⟨S50000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x64, .f32⟩
  | 39 => ⟨S800000x64, .i1⟩
  | 40 => ⟨S_, .f32⟩
  | 41 => ⟨S800000x64, .f32⟩
  | 42 => ⟨S800000x64, .f32⟩
  | 43 => ⟨S1x64x64, .f32⟩
  | 44 => ⟨S64x64, .f32⟩
  | 45 => ⟨S800000x64, .f32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S50000x64, .f32⟩
  | 52 => ⟨S50000x64, .f32⟩
  | 53 => ⟨S1x64x64, .f32⟩
  | 54 => ⟨S64x64, .f32⟩
  | 55 => ⟨S1x64, .f32⟩
  | 56 => ⟨S64, .f32⟩
  | 57 => ⟨S1x64x64, .f32⟩
  | 58 => ⟨S64x64, .f32⟩
  | 59 => ⟨S1x64, .f32⟩
  | 60 => ⟨S64, .f32⟩
  | 61 => ⟨S1x64x64, .f32⟩
  | 62 => ⟨S64x64, .f32⟩
  | 63 => ⟨S1x64, .f32⟩
  | 64 => ⟨S64, .f32⟩
  | 65 => ⟨S1x64, .f32⟩
  | 66 => ⟨S1x64, .f32⟩
  | 67 => ⟨S1x64, .f32⟩
  | 68 => ⟨S50000x64, .f32⟩
  | 69 => ⟨S50000x64, .f32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S1, .i32⟩
  | 80 => ⟨S_, .i32⟩
  | 81 => ⟨S800000x1, .i32⟩
  | 82 => ⟨S800000x1, .i1⟩
  | 83 => ⟨S1x1, .i32⟩
  | 84 => ⟨S800000x1, .i32⟩
  | 85 => ⟨S800000x1, .i1⟩
  | 86 => ⟨S800000x1, .i1⟩
  | 87 => ⟨S_, .i1⟩
  | 88 => ⟨S800000, .i1⟩
  | 89 => ⟨S800000x64, .f32⟩
  | 90 => ⟨S800000x64, .i1⟩
  | 91 => ⟨S_, .f32⟩
  | 92 => ⟨S800000x64, .f32⟩
  | 93 => ⟨S800000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S1, .i32⟩
  | 103 => ⟨S_, .i32⟩
  | 104 => ⟨S800000x1, .i32⟩
  | 105 => ⟨S800000x1, .i1⟩
  | 106 => ⟨S1x1, .i32⟩
  | 107 => ⟨S800000x1, .i32⟩
  | 108 => ⟨S800000x1, .i1⟩
  | 109 => ⟨S800000x1, .i1⟩
  | 110 => ⟨S_, .i1⟩
  | 111 => ⟨S800000, .i1⟩
  | 112 => ⟨S800000x64, .f32⟩
  | 113 => ⟨S800000x64, .i1⟩
  | 114 => ⟨S_, .f32⟩
  | 115 => ⟨S800000x64, .f32⟩
  | 116 => ⟨S800000x64, .f32⟩
  | 117 => ⟨S800000x64, .f32⟩
  | 118 => ⟨S1x64x64, .f32⟩
  | 119 => ⟨S64x64, .f32⟩
  | 120 => ⟨S1x64, .f32⟩
  | 121 => ⟨S64, .f32⟩
  | 122 => ⟨S1x64x64, .f32⟩
  | 123 => ⟨S64x64, .f32⟩
  | 124 => ⟨S1x64, .f32⟩
  | 125 => ⟨S64, .f32⟩
  | 126 => ⟨S1x64, .f32⟩
  | 127 => ⟨S1x64, .f32⟩
  | _ => ⟨S50000x64, .f32⟩

abbrev hbmTy0_2 (i : Nat) : BufTy := match i % 128 with
  | 0 => ⟨S800000x64, .f32⟩
  | 1 => ⟨S1x64x64, .f32⟩
  | 2 => ⟨S64x64, .f32⟩
  | 3 => ⟨S50000x64, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S1, .i32⟩
  | 13 => ⟨S_, .i32⟩
  | 14 => ⟨S800000x1, .i32⟩
  | 15 => ⟨S800000x1, .i1⟩
  | 16 => ⟨S1x1, .i32⟩
  | 17 => ⟨S800000x1, .i32⟩
  | 18 => ⟨S800000x1, .i1⟩
  | 19 => ⟨S800000x1, .i1⟩
  | 20 => ⟨S_, .i1⟩
  | 21 => ⟨S800000, .i1⟩
  | 22 => ⟨S800000x64, .f32⟩
  | 23 => ⟨S800000x64, .i1⟩
  | 24 => ⟨S_, .f32⟩
  | 25 => ⟨S800000x64, .f32⟩
  | 26 => ⟨S800000x64, .f32⟩
  | 27 => ⟨S1x64x64, .f32⟩
  | 28 => ⟨S64x64, .f32⟩
  | 29 => ⟨S800000x64, .f32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000x64, .f32⟩
  | 36 => ⟨S50000x64, .f32⟩
  | 37 => ⟨S1x64x64, .f32⟩
  | 38 => ⟨S64x64, .f32⟩
  | 39 => ⟨S1x64, .f32⟩
  | 40 => ⟨S64, .f32⟩
  | 41 => ⟨S1x64, .f32⟩
  | 42 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S6400x64, .f32⟩
  | .local _ .vmem, ⟨6, _⟩ => ⟨S6400x64, .f32⟩
  | .local _ .vmem, ⟨7, _⟩ => ⟨S64x64, .f32⟩
  | .local _ .vmem, ⟨8, _⟩ => ⟨S6400x64, .f32⟩
  | .local _ .vmem, ⟨9, _⟩ => ⟨S6400x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S6400x64, .f32⟩
  | .local _ .vmem, ⟨27, _⟩ => ⟨S6400x64, .f32⟩
  | .local _ .vmem, ⟨28, _⟩ => ⟨S64x64, .f32⟩
  | .local _ .vmem, ⟨29, _⟩ => ⟨S1x64, .f32⟩
  | .local _ .vmem, ⟨30, _⟩ => ⟨S6400x64, .f32⟩
  | .local _ .vmem, ⟨31, _⟩ => ⟨S6400x64, .f32⟩
  | .local _ .vmem, ⟨32, _⟩ => ⟨S64x64, .f32⟩
  | .local _ .vmem, ⟨33, _⟩ => ⟨S1x64, .f32⟩
  | .local _ .vmem, ⟨34, _⟩ => ⟨S6400x64, .f32⟩
  | .local _ .vmem, ⟨35, _⟩ => ⟨S6400x64, .f32⟩
  | .local _ .vmem, ⟨36, _⟩ => ⟨S2000x64, .f32⟩
  | .local _ .vmem, ⟨37, _⟩ => ⟨S2000x64, .f32⟩
  | .local _ .vmem, ⟨38, _⟩ => ⟨S64x64, .f32⟩
  | .local _ .vmem, ⟨39, _⟩ => ⟨S2000x64, .f32⟩
  | .local _ .vmem, ⟨40, _⟩ => ⟨S2000x64, .f32⟩
  | .local _ .vmem, ⟨41, _⟩ => ⟨S6400x64, .f32⟩
  | .local _ .vmem, ⟨42, _⟩ => ⟨S6400x64, .f32⟩
  | .local _ .vmem, ⟨43, _⟩ => ⟨S64x64, .f32⟩
  | .local _ .vmem, ⟨44, _⟩ => ⟨S6400x64, .f32⟩
  | .local _ .vmem, ⟨45, _⟩ => ⟨S6400x64, .f32⟩
  | .local _ .vmem, ⟨46, _⟩ => ⟨S2000x64, .f32⟩
  | .local _ .vmem, ⟨47, _⟩ => ⟨S2000x64, .f32⟩
  | .local _ .vmem, ⟨48, _⟩ => ⟨S64x64, .f32⟩
  | .local _ .vmem, ⟨49, _⟩ => ⟨S2000x64, .f32⟩
  | .local _ .vmem, ⟨50, _⟩ => ⟨S2000x64, .f32⟩
  | .local _ .vmem, ⟨51, _⟩ => ⟨S1x64, .f32⟩
  | .local _ .vmem, ⟨52, _⟩ => ⟨S64x64, .f32⟩
  | .local _ .vmem, ⟨53, _⟩ => ⟨S1x64, .f32⟩
  | .local _ .vmem, ⟨54, _⟩ => ⟨S64x64, .f32⟩
  | .local _ .vmem, ⟨55, _⟩ => ⟨S1x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S6400x64, .f32⟩
  | .local _ .vmem, ⟨63, _⟩ => ⟨S6400x64, .f32⟩
  | .local _ .vmem, ⟨64, _⟩ => ⟨S64x64, .f32⟩
  | .local _ .vmem, ⟨65, _⟩ => ⟨S1x64, .f32⟩
  | .local _ .vmem, ⟨66, _⟩ => ⟨S6400x64, .f32⟩
  | .local _ .vmem, ⟨67, _⟩ => ⟨S6400x64, .f32⟩
  | .local _ .vmem, ⟨68, _⟩ => ⟨S64x64, .f32⟩
  | .local _ .vmem, ⟨69, _⟩ => ⟨S1x64, .f32⟩
  | .local _ .vmem, ⟨70, _⟩ => ⟨S6400x64, .f32⟩
  | .local _ .vmem, ⟨71, _⟩ => ⟨S6400x64, .f32⟩
  | .local _ .vmem, ⟨72, _⟩ => ⟨S2000x64, .f32⟩
  | .local _ .vmem, ⟨73, _⟩ => ⟨S2000x64, .f32⟩
  | .local _ .vmem, ⟨74, _⟩ => ⟨S64x64, .f32⟩
  | .local _ .vmem, ⟨75, _⟩ => ⟨S2000x64, .f32⟩
  | .local _ .vmem, ⟨76, _⟩ => ⟨S2000x64, .f32⟩
  | .local _ .vmem, ⟨77, _⟩ => ⟨S6400x64, .f32⟩
  | .local _ .vmem, ⟨78, _⟩ => ⟨S6400x64, .f32⟩
  | .local _ .vmem, ⟨79, _⟩ => ⟨S64x64, .f32⟩
  | .local _ .vmem, ⟨80, _⟩ => ⟨S6400x64, .f32⟩
  | .local _ .vmem, ⟨81, _⟩ => ⟨S6400x64, .f32⟩
  | .local _ .vmem, ⟨82, _⟩ => ⟨S2000x64, .f32⟩
  | .local _ .vmem, ⟨83, _⟩ => ⟨S2000x64, .f32⟩
  | .local _ .vmem, ⟨84, _⟩ => ⟨S64x64, .f32⟩
  | .local _ .vmem, ⟨85, _⟩ => ⟨S2000x64, .f32⟩
  | .local _ .vmem, ⟨86, _⟩ => ⟨S2000x64, .f32⟩
  | .local _ .vmem, ⟨87, _⟩ => ⟨S1x64, .f32⟩
  | .local _ .vmem, ⟨88, _⟩ => ⟨S2000x64, .f32⟩
  | .local _ .vmem, ⟨89, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_3 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40_0 : Ref sig .tc := ⟨.hbm, 84, rfl⟩
abbrev main_v40_1 : Ref sig .tc := ⟨.hbm, 85, rfl⟩
abbrev main_v40_2 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v41 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_call4_c : Ref sig .tc := ⟨.hbm, 148, rfl⟩
abbrev main_call4_v0 : Ref sig .tc := ⟨.hbm, 149, rfl⟩
abbrev main_call4_v1 : Ref sig .tc := ⟨.hbm, 150, rfl⟩
abbrev main_call4_c_0 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_call4_v5 : Ref sig .tc := ⟨.hbm, 155, rfl⟩
abbrev main_call4_c_1 : Ref sig .tc := ⟨.hbm, 156, rfl⟩
abbrev main_call4_c_2 : Ref sig .tc := ⟨.hbm, 157, rfl⟩
abbrev main_call4_v6 : Ref sig .tc := ⟨.hbm, 158, rfl⟩
abbrev main_call4_v7 : Ref sig .tc := ⟨.hbm, 159, rfl⟩
abbrev main_call4_v8 : Ref sig .tc := ⟨.hbm, 160, rfl⟩
abbrev main_call4_v9 : Ref sig .tc := ⟨.hbm, 161, rfl⟩
abbrev main_call4_v10 : Ref sig .tc := ⟨.hbm, 162, rfl⟩
abbrev main_call4_v11 : Ref sig .tc := ⟨.hbm, 163, rfl⟩
abbrev main_call4_c_3 : Ref sig .tc := ⟨.hbm, 164, rfl⟩
abbrev main_call4_v12 : Ref sig .tc := ⟨.hbm, 165, rfl⟩
abbrev main_call4_v13 : Ref sig .tc := ⟨.hbm, 166, rfl⟩
abbrev main_call4_v14 : Ref sig .tc := ⟨.hbm, 167, rfl⟩
abbrev main_call4_cst : Ref sig .tc := ⟨.hbm, 168, rfl⟩
abbrev main_call4_v15 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_cst_4 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_v72 : Ref sig .tc := ⟨.hbm, 185, rfl⟩
abbrev main_v73 : Ref sig .tc := ⟨.hbm, 186, rfl⟩
abbrev main_v74 : Ref sig .tc := ⟨.hbm, 187, rfl⟩
abbrev main_v75 : Ref sig .tc := ⟨.hbm, 188, rfl⟩
abbrev main_v76 : Ref sig .tc := ⟨.hbm, 189, rfl⟩
abbrev main_v77 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_v83_0 : Ref sig .tc := ⟨.hbm, 196, rfl⟩
abbrev main_v83_1 : Ref sig .tc := ⟨.hbm, 197, rfl⟩
abbrev main_v83_2 : Ref sig .tc := ⟨.hbm, 198, rfl⟩
abbrev main_call5_c : Ref sig .tc := ⟨.hbm, 199, rfl⟩
abbrev main_call5_v0 : Ref sig .tc := ⟨.hbm, 200, rfl⟩
abbrev main_call5_v1 : Ref sig .tc := ⟨.hbm, 201, rfl⟩
abbrev main_call5_c_0 : Ref sig .tc := ⟨.hbm, 202, rfl⟩
abbrev main_call5_v2 : Ref sig .tc := ⟨.hbm, 203, rfl⟩
abbrev main_call5_v3 : Ref sig .tc := ⟨.hbm, 204, rfl⟩
abbrev main_call5_v4 : Ref sig .tc := ⟨.hbm, 205, rfl⟩
abbrev main_call5_v5 : Ref sig .tc := ⟨.hbm, 206, rfl⟩
abbrev main_call5_c_1 : Ref sig .tc := ⟨.hbm, 207, rfl⟩
abbrev main_call5_c_2 : Ref sig .tc := ⟨.hbm, 208, rfl⟩
abbrev main_call5_v6 : Ref sig .tc := ⟨.hbm, 209, rfl⟩
abbrev main_call5_v7 : Ref sig .tc := ⟨.hbm, 210, rfl⟩
abbrev main_call5_v8 : Ref sig .tc := ⟨.hbm, 211, rfl⟩
abbrev main_call5_v9 : Ref sig .tc := ⟨.hbm, 212, rfl⟩
abbrev main_call5_v10 : Ref sig .tc := ⟨.hbm, 213, rfl⟩
abbrev main_call5_v11 : Ref sig .tc := ⟨.hbm, 214, rfl⟩
abbrev main_call5_c_3 : Ref sig .tc := ⟨.hbm, 215, rfl⟩
abbrev main_call5_v12 : Ref sig .tc := ⟨.hbm, 216, rfl⟩
abbrev main_call5_v13 : Ref sig .tc := ⟨.hbm, 217, rfl⟩
abbrev main_call5_v14 : Ref sig .tc := ⟨.hbm, 218, rfl⟩
abbrev main_call5_cst : Ref sig .tc := ⟨.hbm, 219, rfl⟩
abbrev main_call5_v15 : Ref sig .tc := ⟨.hbm, 220, rfl⟩
abbrev main_v84 : Ref sig .tc := ⟨.hbm, 221, rfl⟩
abbrev main_call6_c : Ref sig .tc := ⟨.hbm, 222, rfl⟩
abbrev main_call6_v0 : Ref sig .tc := ⟨.hbm, 223, rfl⟩
abbrev main_call6_v1 : Ref sig .tc := ⟨.hbm, 224, rfl⟩
abbrev main_call6_c_0 : Ref sig .tc := ⟨.hbm, 225, rfl⟩
abbrev main_call6_v2 : Ref sig .tc := ⟨.hbm, 226, rfl⟩
abbrev main_call6_v3 : Ref sig .tc := ⟨.hbm, 227, rfl⟩
abbrev main_call6_v4 : Ref sig .tc := ⟨.hbm, 228, rfl⟩
abbrev main_call6_v5 : Ref sig .tc := ⟨.hbm, 229, rfl⟩
abbrev main_call6_c_1 : Ref sig .tc := ⟨.hbm, 230, rfl⟩
abbrev main_call6_c_2 : Ref sig .tc := ⟨.hbm, 231, rfl⟩
abbrev main_call6_v6 : Ref sig .tc := ⟨.hbm, 232, rfl⟩
abbrev main_call6_v7 : Ref sig .tc := ⟨.hbm, 233, rfl⟩
abbrev main_call6_v8 : Ref sig .tc := ⟨.hbm, 234, rfl⟩
abbrev main_call6_v9 : Ref sig .tc := ⟨.hbm, 235, rfl⟩
abbrev main_call6_v10 : Ref sig .tc := ⟨.hbm, 236, rfl⟩
abbrev main_call6_v11 : Ref sig .tc := ⟨.hbm, 237, rfl⟩
abbrev main_call6_c_3 : Ref sig .tc := ⟨.hbm, 238, rfl⟩
abbrev main_call6_v12 : Ref sig .tc := ⟨.hbm, 239, rfl⟩
abbrev main_call6_v13 : Ref sig .tc := ⟨.hbm, 240, rfl⟩
abbrev main_call6_v14 : Ref sig .tc := ⟨.hbm, 241, rfl⟩
abbrev main_call6_cst : Ref sig .tc := ⟨.hbm, 242, rfl⟩
abbrev main_call6_v15 : Ref sig .tc := ⟨.hbm, 243, rfl⟩
abbrev main_v85 : Ref sig .tc := ⟨.hbm, 244, rfl⟩
abbrev main_v86 : Ref sig .tc := ⟨.hbm, 245, rfl⟩
abbrev main_v87 : Ref sig .tc := ⟨.hbm, 246, rfl⟩
abbrev main_v88 : Ref sig .tc := ⟨.hbm, 247, rfl⟩
abbrev main_v89 : Ref sig .tc := ⟨.hbm, 248, rfl⟩
abbrev main_v90 : Ref sig .tc := ⟨.hbm, 249, rfl⟩
abbrev main_v91 : Ref sig .tc := ⟨.hbm, 250, rfl⟩
abbrev main_v92 : Ref sig .tc := ⟨.hbm, 251, rfl⟩
abbrev main_v93 : Ref sig .tc := ⟨.hbm, 252, rfl⟩
abbrev main_v94 : Ref sig .tc := ⟨.hbm, 253, rfl⟩
abbrev main_v95 : Ref sig .tc := ⟨.hbm, 254, rfl⟩
abbrev main_v96 : Ref sig .tc := ⟨.hbm, 255, rfl⟩
abbrev main_v97 : Ref sig .tc := ⟨.hbm, 256, rfl⟩
abbrev main_v98 : Ref sig .tc := ⟨.hbm, 257, rfl⟩
abbrev main_v99 : Ref sig .tc := ⟨.hbm, 258, rfl⟩
abbrev main_v100 : Ref sig .tc := ⟨.hbm, 259, rfl⟩
abbrev main_call7_c : Ref sig .tc := ⟨.hbm, 260, rfl⟩
abbrev main_call7_v0 : Ref sig .tc := ⟨.hbm, 261, rfl⟩
abbrev main_call7_v1 : Ref sig .tc := ⟨.hbm, 262, rfl⟩
abbrev main_call7_c_0 : Ref sig .tc := ⟨.hbm, 263, rfl⟩
abbrev main_call7_v2 : Ref sig .tc := ⟨.hbm, 264, rfl⟩
abbrev main_call7_v3 : Ref sig .tc := ⟨.hbm, 265, rfl⟩
abbrev main_call7_v4 : Ref sig .tc := ⟨.hbm, 266, rfl⟩
abbrev main_call7_v5 : Ref sig .tc := ⟨.hbm, 267, rfl⟩
abbrev main_call7_c_1 : Ref sig .tc := ⟨.hbm, 268, rfl⟩
abbrev main_call7_c_2 : Ref sig .tc := ⟨.hbm, 269, rfl⟩
abbrev main_call7_v6 : Ref sig .tc := ⟨.hbm, 270, rfl⟩
abbrev main_call7_v7 : Ref sig .tc := ⟨.hbm, 271, rfl⟩
abbrev main_call7_v8 : Ref sig .tc := ⟨.hbm, 272, rfl⟩
abbrev main_call7_v9 : Ref sig .tc := ⟨.hbm, 273, rfl⟩
abbrev main_call7_v10 : Ref sig .tc := ⟨.hbm, 274, rfl⟩
abbrev main_call7_v11 : Ref sig .tc := ⟨.hbm, 275, rfl⟩
abbrev main_call7_c_3 : Ref sig .tc := ⟨.hbm, 276, rfl⟩
abbrev main_call7_v12 : Ref sig .tc := ⟨.hbm, 277, rfl⟩
abbrev main_call7_v13 : Ref sig .tc := ⟨.hbm, 278, rfl⟩
abbrev main_call7_v14 : Ref sig .tc := ⟨.hbm, 279, rfl⟩
abbrev main_call7_cst : Ref sig .tc := ⟨.hbm, 280, rfl⟩
abbrev main_call7_v15 : Ref sig .tc := ⟨.hbm, 281, rfl⟩
abbrev main_v101 : Ref sig .tc := ⟨.hbm, 282, rfl⟩
abbrev main_v102 : Ref sig .tc := ⟨.hbm, 283, rfl⟩
abbrev main_v103 : Ref sig .tc := ⟨.hbm, 284, rfl⟩
abbrev main_v104 : Ref sig .tc := ⟨.hbm, 285, rfl⟩
abbrev main_v105 : Ref sig .tc := ⟨.hbm, 286, rfl⟩
abbrev main_cst_5 : Ref sig .tc := ⟨.hbm, 287, rfl⟩
abbrev main_v106 : Ref sig .tc := ⟨.hbm, 288, rfl⟩
abbrev main_v107 : Ref sig .tc := ⟨.hbm, 289, rfl⟩
abbrev main_v108 : Ref sig .tc := ⟨.hbm, 290, rfl⟩
abbrev main_v109 : Ref sig .tc := ⟨.hbm, 291, rfl⟩
abbrev main_v110 : Ref sig .tc := ⟨.hbm, 292, rfl⟩
abbrev main_v111 : Ref sig .tc := ⟨.hbm, 293, rfl⟩
abbrev main_v112 : Ref sig .tc := ⟨.hbm, 294, rfl⟩
abbrev main_v113 : Ref sig .tc := ⟨.hbm, 295, rfl⟩
abbrev main_v114 : Ref sig .tc := ⟨.hbm, 296, rfl⟩
abbrev main_v115 : Ref sig .tc := ⟨.hbm, 297, rfl⟩
abbrev main_v116 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg8_1 : Ref sig .tc := ⟨.vmem, 21, rfl⟩
abbrev cc2_stg9_0 : Ref sig .tc := ⟨.vmem, 22, rfl⟩
abbrev cc2_stg9_1 : Ref sig .tc := ⟨.vmem, 23, rfl⟩
abbrev cc2_stg10_0 : Ref sig .tc := ⟨.vmem, 24, rfl⟩
abbrev cc2_stg10_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg7_0 : Ref sig .tc := ⟨.vmem, 55, rfl⟩
abbrev cc6_stg8_0 : Ref sig .tc := ⟨.vmem, 56, rfl⟩
abbrev cc6_stg8_1 : Ref sig .tc := ⟨.vmem, 57, rfl⟩
abbrev cc6_stg9_0 : Ref sig .tc := ⟨.vmem, 58, rfl⟩
abbrev cc6_stg9_1 : Ref sig .tc := ⟨.vmem, 59, rfl⟩
abbrev cc6_stg10_0 : Ref sig .tc := ⟨.vmem, 60, rfl⟩
abbrev cc6_stg10_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc7_stg4_0 : Ref sig .tc := ⟨.vmem, 68, rfl⟩
abbrev cc7_stg5_0 : Ref sig .tc := ⟨.vmem, 69, rfl⟩
abbrev cc7_stg6_0 : Ref sig .tc := ⟨.vmem, 70, rfl⟩
abbrev cc7_stg6_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg2_0 : Ref sig .tc := ⟨.vmem, 75, rfl⟩
abbrev cc8_stg2_1 : Ref sig .tc := ⟨.vmem, 76, rfl⟩
abbrev cc9_stg0_0 : Ref sig .tc := ⟨.vmem, 77, rfl⟩
abbrev cc9_stg0_1 : Ref sig .tc := ⟨.vmem, 78, rfl⟩
abbrev cc9_stg1_0 : Ref sig .tc := ⟨.vmem, 79, rfl⟩
abbrev cc9_stg2_0 : Ref sig .tc := ⟨.vmem, 80, rfl⟩
abbrev cc9_stg2_1 : Ref sig .tc := ⟨.vmem, 81, rfl⟩
abbrev cc10_stg0_0 : Ref sig .tc := ⟨.vmem, 82, rfl⟩
abbrev cc10_stg0_1 : Ref sig .tc := ⟨.vmem, 83, rfl⟩
abbrev cc10_stg1_0 : Ref sig .tc := ⟨.vmem, 84, rfl⟩
abbrev cc10_stg2_0 : Ref sig .tc := ⟨.vmem, 85, rfl⟩
abbrev cc10_stg2_1 : Ref sig .tc := ⟨.vmem, 86, rfl⟩
abbrev cc10_stg3_0 : Ref sig .tc := ⟨.vmem, 87, rfl⟩
abbrev cc10_stg4_0 : Ref sig .tc := ⟨.vmem, 88, rfl⟩
abbrev cc10_stg4_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem8_1 : DmaSem sig := 21
abbrev cc2_sem9_0 : DmaSem sig := 22
abbrev cc2_sem9_1 : DmaSem sig := 23
abbrev cc2_sem10_0 : DmaSem sig := 24
abbrev cc2_sem10_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem7_0 : DmaSem sig := 55
abbrev cc6_sem8_0 : DmaSem sig := 56
abbrev cc6_sem8_1 : DmaSem sig := 57
abbrev cc6_sem9_0 : DmaSem sig := 58
abbrev cc6_sem9_1 : DmaSem sig := 59
abbrev cc6_sem10_0 : DmaSem sig := 60
abbrev cc6_sem10_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem3_1 : DmaSem sig := 67
abbrev cc7_sem4_0 : DmaSem sig := 68
abbrev cc7_sem5_0 : DmaSem sig := 69
abbrev cc7_sem6_0 : DmaSem sig := 70
abbrev cc7_sem6_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem2_1 : DmaSem sig := 76
abbrev cc9_sem0_0 : DmaSem sig := 77
abbrev cc9_sem0_1 : DmaSem sig := 78
abbrev cc9_sem1_0 : DmaSem sig := 79
abbrev cc9_sem2_0 : DmaSem sig := 80
abbrev cc9_sem2_1 : DmaSem sig := 81
abbrev cc10_sem0_0 : DmaSem sig := 82
abbrev cc10_sem0_1 : DmaSem sig := 83
abbrev cc10_sem1_0 : DmaSem sig := 84
abbrev cc10_sem2_0 : DmaSem sig := 85
abbrev cc10_sem2_1 : DmaSem sig := 86
abbrev cc10_sem3_0 : DmaSem sig := 87
abbrev cc10_sem4_0 : DmaSem sig := 88
abbrev cc10_sem4_1 : DmaSem sig := 89

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S6400x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S6400x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6400x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S6400x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S2000x64 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S2000x64 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S2000x64 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![125], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6400x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S6400x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S6400x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![125], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S6400x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S6400x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S2000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x64x64_S1x64x64_0_0_0 : S3x64x64.Slices ![0, 0, 0] S1x64x64
  shapeCasts_S1x64x64_S64x64 : S1x64x64.ShapeCasts S64x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S6400x64_S6400x64_0_0 : ∀ a, (![0, 0] : Fin 2 → Nat) a + S6400x64.size a ≤ S6400x64.size a
  h_S6400x64 : 0 < S6400x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x64_S1x64_0_0 : S3x64.Slices ![0, 0] S1x64
  shapeCasts_S1x64_S64 : S1x64.ShapeCasts S64
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  broadcasts_S1x64_S6400x64 : S1x64.Broadcasts S6400x64
  shapeCasts_S6400x64_S6400x64 : S6400x64.ShapeCasts S6400x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S50000_S800000x1_S800000_n_0_0_1_wf : ScatterDims.WF S50000 S800000x1 S800000 [] [0] [0] 1
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  dot_S6400x64_S64x64_S6400x64_1_0_0_1_n_n_wf : DotDims.WF S6400x64 S64x64 S6400x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S800000x64.size a
  hwx1_0 : ∀ i : grid1.Coords, EltTy.bits .f32 = 32 ∨ (Rect.block (s := S800000x64) S6400x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x64.size a ≤ S800000x64.size a
  hwx1_2 : ∀ i : grid1.Coords, EltTy.bits .f32 = 32 ∨ (Rect.block (s := S800000x64) S6400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x64.size a ≤ S50000x64.size a
  hwx2_8 : ∀ i : grid2.Coords, EltTy.bits .f32 = 32 ∨ (Rect.block (s := S50000x64) S2000x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x64.size a ≤ S50000x64.size a
  hwx2_9 : ∀ i : grid2.Coords, EltTy.bits .f32 = 32 ∨ (Rect.block (s := S50000x64) S2000x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x64.size a ≤ S50000x64.size a
  hwx2_10 : ∀ i : grid2.Coords, EltTy.bits .f32 = 32 ∨ (Rect.block (s := S50000x64) S2000x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x64.size a ≤ S800000x64.size a
  hwx3_0 : ∀ i : grid3.Coords, EltTy.bits .f32 = 32 ∨ (Rect.block (s := S800000x64) S6400x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S6400x64.size a ≤ S800000x64.size a
  hwx3_3 : ∀ i : grid3.Coords, EltTy.bits .f32 = 32 ∨ (Rect.block (s := S800000x64) S6400x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S6400x64.size a ≤ S800000x64.size a
  hwx3_6 : ∀ i : grid3.Coords, EltTy.bits .f32 = 32 ∨ (Rect.block (s := S800000x64) S6400x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6400x64.size a ≤ S800000x64.size a
  hwx5_0 : ∀ i : grid5.Coords, EltTy.bits .f32 = 32 ∨ (Rect.block (s := S800000x64) S6400x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6400x64.size a ≤ S800000x64.size a
  hwx5_2 : ∀ i : grid5.Coords, EltTy.bits .f32 = 32 ∨ (Rect.block (s := S800000x64) S6400x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x64.size a ≤ S64x64.size a
  hwx6_6 : ∀ i : grid6.Coords, EltTy.bits .f32 = 32 ∨ (Rect.block (s := S64x64) S64x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x64.size a ≤ S50000x64.size a
  hwx6_8 : ∀ i : grid6.Coords, EltTy.bits .f32 = 32 ∨ (Rect.block (s := S50000x64) S2000x64.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2000x64.size a ≤ S50000x64.size a
  hwx6_9 : ∀ i : grid6.Coords, EltTy.bits .f32 = 32 ∨ (Rect.block (s := S50000x64) S2000x64.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S2000x64.size a ≤ S50000x64.size a
  hwx6_10 : ∀ i : grid6.Coords, EltTy.bits .f32 = 32 ∨ (Rect.block (s := S50000x64) S2000x64.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6400x64.size a ≤ S800000x64.size a
  hwx7_0 : ∀ i : grid7.Coords, EltTy.bits .f32 = 32 ∨ (Rect.block (s := S800000x64) S6400x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S6400x64.size a ≤ S800000x64.size a
  hwx7_3 : ∀ i : grid7.Coords, EltTy.bits .f32 = 32 ∨ (Rect.block (s := S800000x64) S6400x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S6400x64.size a ≤ S800000x64.size a
  hwx7_6 : ∀ i : grid7.Coords, EltTy.bits .f32 = 32 ∨ (Rect.block (s := S800000x64) S6400x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S50000x64.size a
  hwx8_0 : ∀ i : grid8.Coords, EltTy.bits .f32 = 32 ∨ (Rect.block (s := S50000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x64.size a ≤ S50000x64.size a
  hwx8_2 : ∀ i : grid8.Coords, EltTy.bits .f32 = 32 ∨ (Rect.block (s := S50000x64) S2000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S6400x64.size a ≤ S800000x64.size a
  hwx9_0 : ∀ i : grid9.Coords, EltTy.bits .f32 = 32 ∨ (Rect.block (s := S800000x64) S6400x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S6400x64.size a ≤ S800000x64.size a
  hwx9_2 : ∀ i : grid9.Coords, EltTy.bits .f32 = 32 ∨ (Rect.block (s := S800000x64) S6400x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x64.size a ≤ S50000x64.size a
  hwx10_0 : ∀ i : grid10.Coords, EltTy.bits .f32 = 32 ∨ (Rect.block (s := S50000x64) S2000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x64.size a ≤ S50000x64.size a
  hwx10_2 : ∀ i : grid10.Coords, EltTy.bits .f32 = 32 ∨ (Rect.block (s := S50000x64) S2000x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x64.size a ≤ S50000x64.size a
  hwx10_4 : ∀ i : grid10.Coords, EltTy.bits .f32 = 32 ∨ (Rect.block (s := S50000x64) S2000x64.size (cc10_transform_4 i) (hinb10_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S6400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v40_0) S2000x64.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v40_1) S2000x64.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v40_2) S2000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_arg2) S6400x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S6400x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v49) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v54) S6400x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v40_0) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v54) S6400x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S6400x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v40_0) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v69) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v80) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v73) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v81) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v77) S64x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v82) S1x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v83_0) S2000x64.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_v83_1) S2000x64.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v83_2) S2000x64.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.ofSpec (Memref.whole main_v54) S6400x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v88) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v86) S6400x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v92) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v96) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v97) S6400x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v83_0) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v99) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v100) S2000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v97) S6400x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v103) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v104) S6400x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v83_0) S2000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v112) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v110) S2000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v115) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v116) S2000x64.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 242
  | .vmem => 0
  | .smem => 0
  | _ => 0

abbrev hbmTy0_0 (i : Nat) : BufTy := match i % 128 with
  | 0 => ⟨S50000x64, .f32⟩
  | 1 => ⟨S2x800000, .i32⟩
  | 2 => ⟨S800000x64, .f32⟩
  | 3 => ⟨S3x64x64, .f32⟩
  | 4 => ⟨S3x64x64, .f32⟩
  | 5 => ⟨S3x64x64, .f32⟩
  | 6 => ⟨S3x64, .f32⟩
  | 7 => ⟨S3x64x64, .f32⟩
  | 8 => ⟨S3x64, .f32⟩
  | 9 => ⟨S3x64x64, .f32⟩
  | 10 => ⟨S3x64, .f32⟩
  | 11 => ⟨S3x64x64, .f32⟩
  | 12 => ⟨S3x64, .f32⟩
  | 13 => ⟨S3x64x64, .f32⟩
  | 14 => ⟨S3x64, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S1x64x64, .f32⟩
  | 43 => ⟨S64x64, .f32⟩
  | 44 => ⟨S800000x64, .f32⟩
  | 45 => ⟨S1x64x64, .f32⟩
  | 46 => ⟨S64x64, .f32⟩
  | 47 => ⟨S800000x64, .f32⟩
  | 48 => ⟨S800000x64, .f32⟩
  | 49 => ⟨S_, .f32⟩
  | 50 => ⟨S50000x64, .f32⟩
  | 51 => ⟨S800000x1, .i32⟩
  | 52 => ⟨S50000x64, .f32⟩
  | 53 => ⟨S50000x64, .f32⟩
  | 54 => ⟨S50000x64, .f32⟩
  | 55 => ⟨S1x64x64, .f32⟩
  | 56 => ⟨S64x64, .f32⟩
  | 57 => ⟨S50000x64, .f32⟩
  | 58 => ⟨S50000x64, .f32⟩
  | 59 => ⟨S1x64, .f32⟩
  | 60 => ⟨S64, .f32⟩
  | 61 => ⟨S1x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S1x64x64, .f32⟩
  | 68 => ⟨S64x64, .f32⟩
  | 69 => ⟨S800000x64, .f32⟩
  | 70 => ⟨S1x64, .f32⟩
  | 71 => ⟨S64, .f32⟩
  | 72 => ⟨S1x64, .f32⟩
  | 73 => ⟨S800000x64, .f32⟩
  | 74 => ⟨S800000x64, .f32⟩
  | 75 => ⟨S1x64x64, .f32⟩
  | 76 => ⟨S64x64, .f32⟩
  | 77 => ⟨S50000x64, .f32⟩
  | 78 => ⟨S1x64, .f32⟩
  | 79 => ⟨S64, .f32⟩
  | 80 => ⟨S1x64, .f32⟩
  | 81 => ⟨S50000x64, .f32⟩
  | 82 => ⟨S50000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S800000x64, .f32⟩
  | 93 => ⟨S1x64x64, .f32⟩
  | 94 => ⟨S64x64, .f32⟩
  | 95 => ⟨S50000x64, .f32⟩
  | 96 => ⟨S1x64, .f32⟩
  | 97 => ⟨S64, .f32⟩
  | 98 => ⟨S1x64, .f32⟩
  | 99 => ⟨S50000x64, .f32⟩
  | 100 => ⟨S50000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S800000x64, .f32⟩
  | 111 => ⟨S_, .f32⟩
  | 112 => ⟨S800000x64, .f32⟩
  | 113 => ⟨S800000x64, .f32⟩
  | 114 => ⟨S1x64x64, .f32⟩
  | 115 => ⟨S64x64, .f32⟩
  | 116 => ⟨S800000x64, .f32⟩
  | 117 => ⟨S1x64, .f32⟩
  | 118 => ⟨S64, .f32⟩
  | 119 => ⟨S1x64, .f32⟩
  | 120 => ⟨S800000x64, .f32⟩
  | 121 => ⟨S800000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_1 (i : Nat) : BufTy := match i % 128 with
  | 0 => ⟨S800000, .i32⟩
  | 1 => ⟨S800000x1, .i32⟩
  | 2 => ⟨S800000x64, .f32⟩
  | 3 => ⟨S1x64x64, .f32⟩
  | 4 => ⟨S64x64, .f32⟩
  | 5 => ⟨S800000x64, .f32⟩
  | 6 => ⟨S1x64x64, .f32⟩
  | 7 => ⟨S64x64, .f32⟩
  | 8 => ⟨S800000x64, .f32⟩
  | 9 => ⟨S800000x64, .f32⟩
  | 10 => ⟨S_, .f32⟩
  | 11 => ⟨S50000x64, .f32⟩
  | 12 => ⟨S800000x1, .i32⟩
  | 13 => ⟨S50000x64, .f32⟩
  | 14 => ⟨S50000x64, .f32⟩
  | 15 => ⟨S50000x64, .f32⟩
  | 16 => ⟨S1x64x64, .f32⟩
  | 17 => ⟨S64x64, .f32⟩
  | 18 => ⟨S50000x64, .f32⟩
  | 19 => ⟨S50000x64, .f32⟩
  | 20 => ⟨S1x64, .f32⟩
  | 21 => ⟨S64, .f32⟩
  | 22 => ⟨S1x64, .f32⟩
  | 23 => ⟨S50000x64, .f32⟩
  | 24 => ⟨S50000x64, .f32⟩
  | 25 => ⟨S_, .f32⟩
  | 26 => ⟨S50000x64, .f32⟩
  | 27 => ⟨S50000x64, .f32⟩
  | 28 => ⟨S1x64x64, .f32⟩
  | 29 => ⟨S64x64, .f32⟩
  | 30 => ⟨S800000x64, .f32⟩
  | 31 => ⟨S1x64, .f32⟩
  | 32 => ⟨S64, .f32⟩
  | 33 => ⟨S1x64, .f32⟩
  | 34 => ⟨S800000x64, .f32⟩
  | 35 => ⟨S800000x64, .f32⟩
  | 36 => ⟨S1x64x64, .f32⟩
  | 37 => ⟨S64x64, .f32⟩
  | 38 => ⟨S50000x64, .f32⟩
  | 39 => ⟨S1x64, .f32⟩
  | 40 => ⟨S64, .f32⟩
  | 41 => ⟨S1x64, .f32⟩
  | 42 => ⟨S50000x64, .f32⟩
  | 43 => ⟨S50000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S800000x64, .f32⟩
  | 54 => ⟨S1x64x64, .f32⟩
  | 55 => ⟨S64x64, .f32⟩
  | 56 => ⟨S50000x64, .f32⟩
  | 57 => ⟨S1x64, .f32⟩
  | 58 => ⟨S64, .f32⟩
  | 59 => ⟨S1x64, .f32⟩
  | 60 => ⟨S50000x64, .f32⟩
  | 61 => ⟨S50000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S800000x64, .f32⟩
  | 72 => ⟨S_, .f32⟩
  | 73 => ⟨S800000x64, .f32⟩
  | 74 => ⟨S800000x64, .f32⟩
  | 75 => ⟨S1x64x64, .f32⟩
  | 76 => ⟨S64x64, .f32⟩
  | 77 => ⟨S800000x64, .f32⟩
  | 78 => ⟨S1x64, .f32⟩
  | 79 => ⟨S64, .f32⟩
  | 80 => ⟨S1x64, .f32⟩
  | 81 => ⟨S800000x64, .f32⟩
  | 82 => ⟨S800000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S1x64x64, .f32⟩
  | 93 => ⟨S64x64, .f32⟩
  | 94 => ⟨S800000x64, .f32⟩
  | 95 => ⟨S1x64x64, .f32⟩
  | 96 => ⟨S64x64, .f32⟩
  | 97 => ⟨S800000x64, .f32⟩
  | 98 => ⟨S800000x64, .f32⟩
  | 99 => ⟨S_, .f32⟩
  | 100 => ⟨S50000x64, .f32⟩
  | 101 => ⟨S800000x1, .i32⟩
  | 102 => ⟨S50000x64, .f32⟩
  | 103 => ⟨S50000x64, .f32⟩
  | 104 => ⟨S50000x64, .f32⟩
  | 105 => ⟨S1x64x64, .f32⟩
  | 106 => ⟨S64x64, .f32⟩
  | 107 => ⟨S50000x64, .f32⟩
  | 108 => ⟨S50000x64, .f32⟩
  | 109 => ⟨S1x64, .f32⟩
  | 110 => ⟨S64, .f32⟩
  | 111 => ⟨S1x64, .f32⟩
  | 112 => ⟨S50000x64, .f32⟩
  | 113 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call1_cst : Ref sig .tc := ⟨.hbm, 64, rfl⟩
abbrev main_call1_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_5 : Ref sig .tc := ⟨.hbm, 83, rfl⟩
abbrev main_v57 : Ref sig .tc := ⟨.hbm, 84, rfl⟩
abbrev main_v58 : Ref sig .tc := ⟨.hbm, 85, rfl⟩
abbrev main_c_6 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_7 : Ref sig .tc := ⟨.hbm, 101, rfl⟩
abbrev main_v73 : Ref sig .tc := ⟨.hbm, 102, rfl⟩
abbrev main_v74 : Ref sig .tc := ⟨.hbm, 103, rfl⟩
abbrev main_c_8 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call2_cst : Ref sig .tc := ⟨.hbm, 111, rfl⟩
abbrev main_call2_v0 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_9 : Ref sig .tc := ⟨.hbm, 122, rfl⟩
abbrev main_v90 : Ref sig .tc := ⟨.hbm, 123, rfl⟩
abbrev main_v91 : Ref sig .tc := ⟨.hbm, 124, rfl⟩
abbrev main_c_10 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_11 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_call3_cst : Ref sig .tc := ⟨.hbm, 153, rfl⟩
abbrev main_call3_v0 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_c_12 : Ref sig .tc := ⟨.hbm, 172, rfl⟩
abbrev main_v135 : Ref sig .tc := ⟨.hbm, 173, rfl⟩
abbrev main_v136 : Ref sig .tc := ⟨.hbm, 174, rfl⟩
abbrev main_c_13 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_c_14 : Ref sig .tc := ⟨.hbm, 190, rfl⟩
abbrev main_v151 : Ref sig .tc := ⟨.hbm, 191, rfl⟩
abbrev main_v152 : Ref sig .tc := ⟨.hbm, 192, rfl⟩
abbrev main_c_15 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_call4_cst : Ref sig .tc := ⟨.hbm, 200, rfl⟩
abbrev main_call4_v0 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_c_16 : Ref sig .tc := ⟨.hbm, 211, rfl⟩
abbrev main_v168 : Ref sig .tc := ⟨.hbm, 212, rfl⟩
abbrev main_v169 : Ref sig .tc := ⟨.hbm, 213, rfl⟩
abbrev main_c_17 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_18 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x64x64_S1x64x64_0_0_0 : S3x64x64.Slices ![0, 0, 0] S1x64x64
  shapeCasts_S1x64x64_S64x64 : S1x64x64.ShapeCasts S64x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KDefs.lean ====
import proofs.«404994_j27599459844666_2_alg».proof.Proof.Gen.KernelIdeal

noncomputable section

namespace Cert.KernelIdeal.KV

open Cert.KernelIdeal Cert.KernelIdeal.Gen Idealize.ShloMosaic Idealize.ShloMosaic.TcCoe

variable {F : FTy → Type} [FloatOps F]

def srcK (a1 : IVec S2x800000 32) : IVec S800000 32 :=
  shapeCast S800000 (extractStridedSlice S1x800000 ![0, 0] a1 slices_S2x800000_S1x800000_0_0) shapeCasts_S1x800000_S800000

def dstK (a1 : IVec S2x800000 32) : IVec S800000 32 :=
  shapeCast S800000 (extractStridedSlice S1x800000 ![1, 0] a1 slices_S2x800000_S1x800000_1_0) shapeCasts_S1x800000_S800000

def degK (a1 : IVec S2x800000 32) : FVec F S50000 .f32 :=
  Host.scatterAdd scatter_S50000_S800000x1_S800000_n_0_0_1 (broadcastInDim S50000 ![] bcast_S_S50000 (constant S_ .f32 0x00000000#32))
    (broadcastInDim S800000x1 ![0] bcast_S800000_S800000x1_0 (dstK a1)) (broadcastInDim S800000 ![] bcast_S_S800000 (constant S_ .f32 0x3F800000#32))

def invK (a1 : IVec S2x800000 32) : FVec F S50000x1 .f32 :=
  broadcastInDim S50000x1 ![0] bcast_S50000_S50000x1_0
    (Host.divf (broadcastInDim S50000 ![] bcast_S_S50000 (constant S_ .f32 0x3F800000#32))
      (maximumf (broadcastInDim S50000 ![] bcast_S_S50000 (constant S_ .f32 0x3F800000#32)) (degK a1)))

def wrapK (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

def colK (idx : IVec S800000 32) : IVec S800000x1 32 :=
  broadcastInDim S800000x1 ![0] bcast_S800000_S800000x1_0 (wrapK idx)

def inRangeK (idx : IVec S800000 32) : IVec S800000 1 :=
  Host.reduce IntOp.andi
    (andi (cmpi .sge (colK idx) (broadcastInDim S800000x1 ![] bcast_S_S800000x1 (constantI S_ 32 0#32)))
      (cmpi .sle (colK idx) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

def takeK (x : FVec F S50000x64 .f32) (idx : IVec S800000 32) : FVec F S800000x64 .f32 :=
  select (broadcastInDim S800000x64 ![0] bcast_S800000_S800000x64_0 (inRangeK idx))
    (Host.gather gather_S50000x64_S800000x1_S800000x64_1_0_n_n_0_1_164 x (colK idx))
    (broadcastInDim S800000x64 ![] bcast_S_S800000x64 (constant S_ .f32 0x7FC00000#32))

def segK (a1 : IVec S2x800000 32) (msg : FVec F S800000x64 .f32) : FVec F S50000x64 .f32 :=
  mulf (Host.scatterAdd scatter_S50000x64_S800000x1_S800000x64_1_0_0_1
      (broadcastInDim S50000x64 ![] bcast_S_S50000x64 (constant S_ .f32 0x00000000#32))
      (broadcastInDim S800000x1 ![0] bcast_S800000_S800000x1_0 (dstK a1)) msg)
    (broadcastInDim S50000x64 ![0, 1] bcast_S50000x1_S50000x64_0_1 (invK a1))

end Cert.KernelIdeal.KV

end
-- ==== Proof.Carry.lean ====
import Idealize.ShloMosaic.Lib.StableHlo.Run
import Idealize.ShloMosaic.Lib.Pipeline.FrameSuffix

noncomputable section

namespace Cert.Carry

open Idealize.ShloMosaic Idealize.ShloMosaic.TcCoe Idealize.SL.Sem

variable {τ : Topo} {sig : RefSig} {Val : EltTy → Type}

/-- An operation whose one written reference is listed writes inside the list. -/
theorem wr1 {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Every operation of `ops` writes inside the list `W`. -/
abbrev Writes (ops : List (HloOp τ sig Val)) (W : List (Ref sig .tc)) : Prop :=
  ops.Forall fun op => op.writes ⊆ (W.map (Proc.devRef (τ := τ) .tc)).toFinset

/-- The arrays of a region's output windows. -/
abbrev outs {gr W : Nat} (win : Fin W → Pipeline.WinSpec sig gr) : List (Ref sig .tc) :=
  ((List.finRange W).filter fun w => (win w).isOut).map (Pipeline.arrRef win)

/-- A region changes only its output windows' arrays: every other buffer, an input window's array included, is kept. -/
theorem region {gr W : Nat} {win : Fin W → Pipeline.WinSpec sig gr} {V V' : Valuation τ sig Val} {b : Ref sig .tc}
    (hne : (∀ w, Pipeline.arrRef win w ≠ b) → V' (Proc.devRef .tc b) = V (Proc.devRef .tc b))
    (hin : ∀ w, (win w).isOut = false →
      V' (Proc.devRef .tc (Pipeline.arrRef win w)) = V (Proc.devRef .tc (Pipeline.arrRef win w)))
    (h : b ∉ outs win) : V' (Proc.devRef .tc b) = V (Proc.devRef .tc b) := by
  by_cases hb : ∀ w, Pipeline.arrRef win w ≠ b
  · exact hne hb
  · obtain ⟨w, rfl⟩ := not_forall_not.mp hb
    exact hin w (Bool.eq_false_iff.mpr fun ho =>
      h (List.mem_map_of_mem (List.mem_filter.mpr ⟨List.mem_finRange w, ho⟩)))

/-- Along the boundary contents `Vs`, with `ws` what each step may write, every step keeps what it does not write. -/
def Valid : List (Valuation τ sig Val) → List (List (Ref sig .tc)) → Prop
  | V :: V' :: Vs, w :: ws =>
    (∀ {b : Ref sig .tc}, b ∉ w → V' (Proc.devRef .tc b) = V (Proc.devRef .tc b)) ∧ Valid (V' :: Vs) ws
  | _ :: _ :: _, [] => False
  | _, _ => True

theorem Valid.tail : ∀ {V : Valuation τ sig Val} {Vs : List (Valuation τ sig Val)} {ws : List (List (Ref sig .tc))},
    Valid (V :: Vs) ws → Valid Vs ws.tail
  | _, [], _, _ => trivial
  | _, [_], _, _ => trivial
  | _, _ :: _ :: _, [], h => h.elim
  | _, _ :: _ :: _, _ :: _, h => h.2

theorem carry0 {b : Ref sig .tc} : ∀ (d : Nat) (V : Valuation τ sig Val) (Vs : List (Valuation τ sig Val))
    (ws : List (List (Ref sig .tc))), Valid (V :: Vs) ws → ∀ {Y : Valuation τ sig Val},
    b ∉ (ws.take d).flatten → (V :: Vs)[d]? = some Y → Y (Proc.devRef .tc b) = V (Proc.devRef .tc b)
  | 0, V, Vs, ws, _, Y, _, hy => by
    simp only [List.getElem?_cons_zero, Option.some.injEq] at hy
    rw [hy]
  | d + 1, V, [], ws, _, Y, _, hy => by simp at hy
  | d + 1, V, V' :: Vs, [], hv, _, _, _ => hv.elim
  | d + 1, V, V' :: Vs, w :: ws, hv, Y, hb, hy => by
    simp only [List.take_succ_cons, List.flatten_cons, List.mem_append, not_or] at hb
    rw [List.getElem?_cons_succ] at hy
    exact (carry0 d V' Vs ws hv.2 hb.2 hy).trans (hv.1 hb.1)

/-- A reference written by none of the `d` steps after boundary `i` holds at boundary `i + d` what it held at `i`. -/
theorem carry {b : Ref sig .tc} : ∀ {Vs : List (Valuation τ sig Val)} {ws : List (List (Ref sig .tc))},
    Valid Vs ws → ∀ (i d : Nat) {X Y : Valuation τ sig Val},
    b ∉ ((ws.drop i).take d).flatten → Vs[i]? = some X → Vs[i + d]? = some Y →
    Y (Proc.devRef .tc b) = X (Proc.devRef .tc b)
  | [], _, _, _, _, _, _, _, hx, _ => by simp at hx
  | V :: Vs, ws, hv, 0, d, X, Y, hb, hx, hy => by
    simp only [List.getElem?_cons_zero, Option.some.injEq] at hx
    subst hx
    rw [Nat.zero_add] at hy
    exact carry0 d V Vs ws hv (by simpa using hb) hy
  | V :: Vs, [], hv, i + 1, d, X, Y, _, hx, hy => by
    rw [List.getElem?_cons_succ] at hx
    rw [Nat.add_right_comm, List.getElem?_cons_succ] at hy
    exact carry (Valid.tail hv) i d (by simp) hx hy
  | V :: Vs, w :: ws, hv, i + 1, d, X, Y, hb, hx, hy => by
    rw [List.getElem?_cons_succ] at hx
    rw [Nat.add_right_comm, List.getElem?_cons_succ] at hy
    exact carry (Valid.tail hv) i d (by simpa using hb) hx hy

end Cert.Carry

end
-- ==== Proof.KCarry.lean ====
import proofs.«404994_j27599459844666_2_alg».proof.Proof.Gen.KernelIdeal.Frame
import proofs.«404994_j27599459844666_2_alg».proof.Proof.Carry

set_option maxRecDepth 16384

noncomputable section

namespace Cert.KernelIdeal.KCarry

open Cert.KernelIdeal Cert.KernelIdeal.Gen Cert.Carry Idealize.ShloMosaic Idealize.ShloMosaic.TcCoe Idealize.SL.Sem

variable {F : FTy → Type} [FloatOps F]

abbrev hostOps0_W : List (Ref sig .tc) := [main_v0, main_v1, main_v2, main_v3, main_cst, main_v4, main_cst_0, main_v5, main_v6, main_v7, main_cst_1]
theorem hostOps0_writes : Writes (hostOps0 : List (HloOp τ sig (Elt F))) hostOps0_W := by
  simp only [Writes, List.Forall]; repeat' apply And.intro
  all_goals exact wr1 (by decide)

abbrev hostOps0_1_W : List (Ref sig .tc) := [main_call0_v0, main_call0_v1, main_v8]
theorem hostOps0_1_writes : Writes (hostOps0_1 : List (HloOp τ sig (Elt F))) hostOps0_1_W := by
  simp only [Writes, List.Forall]; repeat' apply And.intro
  all_goals exact wr1 (by decide)

abbrev hostOps0_2_W : List (Ref sig .tc) := [main_cst_2, main_v9, main_v10, main_v11, main_v12, main_v13]
theorem hostOps0_2_writes : Writes (hostOps0_2 : List (HloOp τ sig (Elt F))) hostOps0_2_W := by
  simp only [Writes, List.Forall]; repeat' apply And.intro
  all_goals exact wr1 (by decide)

abbrev hostOps1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v15]
theorem hostOps1_writes : Writes (hostOps1 : List (HloOp τ sig (Elt F))) hostOps1_W := by
  simp only [Writes, List.Forall]; repeat' apply And.intro
  all_goals exact wr1 (by decide)

abbrev hostOps1_1_W : List (Ref sig .tc) := [main_v16, main_v17]
theorem hostOps1_1_writes : Writes (hostOps1_1 : List (HloOp τ sig (Elt F))) hostOps1_1_W := by
  simp only [Writes, List.Forall]; repeat' apply And.intro
  all_goals exact wr1 (by decide)

abbrev hostOps2_W : List (Ref sig .tc) := [main_v19, main_cst_3, main_v20, main_v21, main_v22, main_v23, main_v24, main_v25, main_v26, main_v27, main_v28, main_v29, main_v30, main_v31, main_v32, main_v33, main_v34, main_v35, main_v36, main_v37, main_v38, main_v39]
theorem hostOps2_writes : Writes (hostOps2 : List (HloOp τ sig (Elt F))) hostOps2_W := by
  simp only [Writes, List.Forall]; repeat' apply And.intro
  all_goals exact wr1 (by decide)

abbrev hostOps3_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v41]
theorem hostOps3_writes : Writes (hostOps3 : List (HloOp τ sig (Elt F))) hostOps3_W := by
  simp only [Writes, List.Forall]; repeat' apply And.intro
  all_goals exact wr1 (by decide)

abbrev hostOps3_1_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v42]
theorem hostOps3_1_writes : Writes (hostOps3_1 : List (HloOp τ sig (Elt F))) hostOps3_1_W := by
  simp only [Writes, List.Forall]; repeat' apply And.intro
  all_goals exact wr1 (by decide)

abbrev hostOps3_2_W : List (Ref sig .tc) := [main_v43, main_v44, main_v45, main_v46, main_v47, main_v48, main_v49, main_v50, main_v51, main_v52, main_v53]
theorem hostOps3_2_writes : Writes (hostOps3_2 : List (HloOp τ sig (Elt F))) hostOps3_2_W := by
  simp only [Writes, List.Forall]; repeat' apply And.intro
  all_goals exact wr1 (by decide)

abbrev hostOps4_W : List (Ref sig .tc) := [main_v55, main_v56]
theorem hostOps4_writes : Writes (hostOps4 : List (HloOp τ sig (Elt F))) hostOps4_W := by
  simp only [Writes, List.Forall]; repeat' apply And.intro
  all_goals exact wr1 (by decide)

abbrev hostOps5_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v58]
theorem hostOps5_writes : Writes (hostOps5 : List (HloOp τ sig (Elt F))) hostOps5_W := by
  simp only [Writes, List.Forall]; repeat' apply And.intro
  all_goals exact wr1 (by decide)

abbrev hostOps5_1_W : List (Ref sig .tc) := [main_v59, main_v60]
theorem hostOps5_1_writes : Writes (hostOps5_1 : List (HloOp τ sig (Elt F))) hostOps5_1_W := by
  simp only [Writes, List.Forall]; repeat' apply And.intro
  all_goals exact wr1 (by decide)

abbrev hostOps6_W : List (Ref sig .tc) := [main_v62, main_cst_4, main_v63, main_v64, main_v65, main_v66, main_v67, main_v68, main_v69, main_v70, main_v71, main_v72, main_v73, main_v74, main_v75, main_v76, main_v77, main_v78, main_v79, main_v80, main_v81, main_v82]
theorem hostOps6_writes : Writes (hostOps6 : List (HloOp τ sig (Elt F))) hostOps6_W := by
  simp only [Writes, List.Forall]; repeat' apply And.intro
  all_goals exact wr1 (by decide)

abbrev hostOps7_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v84]
theorem hostOps7_writes : Writes (hostOps7 : List (HloOp τ sig (Elt F))) hostOps7_W := by
  simp only [Writes, List.Forall]; repeat' apply And.intro
  all_goals exact wr1 (by decide)

abbrev hostOps7_1_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v85]
theorem hostOps7_1_writes : Writes (hostOps7_1 : List (HloOp τ sig (Elt F))) hostOps7_1_W := by
  simp only [Writes, List.Forall]; repeat' apply And.intro
  all_goals exact wr1 (by decide)

abbrev hostOps7_2_W : List (Ref sig .tc) := [main_v86, main_v87, main_v88, main_v89, main_v90, main_v91, main_v92, main_v93, main_v94, main_v95, main_v96]
theorem hostOps7_2_writes : Writes (hostOps7_2 : List (HloOp τ sig (Elt F))) hostOps7_2_W := by
  simp only [Writes, List.Forall]; repeat' apply And.intro
  all_goals exact wr1 (by decide)

abbrev hostOps8_W : List (Ref sig .tc) := [main_v98, main_v99]
theorem hostOps8_writes : Writes (hostOps8 : List (HloOp τ sig (Elt F))) hostOps8_W := by
  simp only [Writes, List.Forall]; repeat' apply And.intro
  all_goals exact wr1 (by decide)

abbrev hostOps9_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v101]
theorem hostOps9_writes : Writes (hostOps9 : List (HloOp τ sig (Elt F))) hostOps9_W := by
  simp only [Writes, List.Forall]; repeat' apply And.intro
  all_goals exact wr1 (by decide)

abbrev hostOps9_1_W : List (Ref sig .tc) := [main_v102, main_v103]
theorem hostOps9_1_writes : Writes (hostOps9_1 : List (HloOp τ sig (Elt F))) hostOps9_1_W := by
  simp only [Writes, List.Forall]; repeat' apply And.intro
  all_goals exact wr1 (by decide)

abbrev hostOps10_W : List (Ref sig .tc) := [main_v105, main_cst_5, main_v106, main_v107, main_v108, main_v109, main_v110, main_v111, main_v112, main_v113, main_v114, main_v115]
theorem hostOps10_writes : Writes (hostOps10 : List (HloOp τ sig (Elt F))) hostOps10_W := by
  simp only [Writes, List.Forall]; repeat' apply And.intro
  all_goals exact wr1 (by decide)

/-- What each step of the run may write: a host stretch its operations' results, a region its output arrays. -/
noncomputable def wrs : List (List (Ref sig .tc)) :=
  [hostOps0_W, hostOps0_1_W, hostOps0_2_W, outs spec0, hostOps1_W, hostOps1_1_W, outs spec1, hostOps2_W, outs spec2, hostOps3_W, hostOps3_1_W, hostOps3_2_W, outs spec3, hostOps4_W, outs spec4, hostOps5_W, hostOps5_1_W, outs spec5, hostOps6_W, outs spec6, hostOps7_W, hostOps7_1_W, hostOps7_2_W, outs spec7, hostOps8_W, outs spec8, hostOps9_W, hostOps9_1_W, outs spec9, hostOps10_W, outs spec10]

variable (m : (ℓ : Loc nD τ sig) → Buf (Elt F) ℓ) (ρ : Dev nD → PrngReg) (c : Dev nD)

/-- The buffer contents at the run's boundaries, in order. -/
def Ws : List (Valuation τ sig (Elt F)) :=
  [W0 m ρ c, W1 m ρ c, W2 m ρ c, W3 m ρ c, W4 m ρ c, W5 m ρ c, W6 m ρ c, W7 m ρ c, W8 m ρ c, W9 m ρ c, W10 m ρ c, W11 m ρ c, W12 m ρ c, W13 m ρ c, W14 m ρ c, W15 m ρ c, W16 m ρ c, W17 m ρ c, W18 m ρ c, W19 m ρ c, W20 m ρ c, W21 m ρ c, W22 m ρ c, W23 m ρ c, W24 m ρ c, W25 m ρ c, W26 m ρ c, W27 m ρ c, W28 m ρ c, W29 m ρ c, W30 m ρ c, W31 m ρ c]

theorem valid : Valid (Ws m ρ c) wrs :=
  ⟨StableHlo.after_of_writes_sub hostOps0 _ hostOps0_writes,
   StableHlo.after_of_writes_sub hostOps0_1 _ hostOps0_1_writes,
   StableHlo.after_of_writes_sub hostOps0_2 _ hostOps0_2_writes,
   fun {b} => region (W4_of_ne m ρ c b) fun w hw => (W4_arr m ρ c w).trans (((dat0 (V3 m ρ) c).arrAt_in w hw _).trans (A_eq0 (V3 m ρ) c w)),
   StableHlo.after_of_writes_sub hostOps1 _ hostOps1_writes,
   StableHlo.after_of_writes_sub hostOps1_1 _ hostOps1_1_writes,
   fun {b} => region (W7_of_ne m ρ c b) fun w hw => (W7_arr m ρ c w).trans (((dat1 (V6 m ρ) c).arrAt_in w hw _).trans (A_eq1 (V6 m ρ) c w)),
   StableHlo.after_of_writes_sub hostOps2 _ hostOps2_writes,
   fun {b} => region (W9_of_ne m ρ c b) fun w hw => (W9_arr m ρ c w).trans (((dat2 (V8 m ρ) c).arrAt_in w hw _).trans (A_eq2 (V8 m ρ) c w)),
   StableHlo.after_of_writes_sub hostOps3 _ hostOps3_writes,
   StableHlo.after_of_writes_sub hostOps3_1 _ hostOps3_1_writes,
   StableHlo.after_of_writes_sub hostOps3_2 _ hostOps3_2_writes,
   fun {b} => region (W13_of_ne m ρ c b) fun w hw => (W13_arr m ρ c w).trans (((dat3 (V12 m ρ) c).arrAt_in w hw _).trans (A_eq3 (V12 m ρ) c w)),
   StableHlo.after_of_writes_sub hostOps4 _ hostOps4_writes,
   fun {b} => region (W15_of_ne m ρ c b) fun w hw => (W15_arr m ρ c w).trans (((dat4 (V14 m ρ) c).arrAt_in w hw _).trans (A_eq4 (V14 m ρ) c w)),
   StableHlo.after_of_writes_sub hostOps5 _ hostOps5_writes,
   StableHlo.after_of_writes_sub hostOps5_1 _ hostOps5_1_writes,
   fun {b} => region (W18_of_ne m ρ c b) fun w hw => (W18_arr m ρ c w).trans (((dat5 (V17 m ρ) c).arrAt_in w hw _).trans (A_eq5 (V17 m ρ) c w)),
   StableHlo.after_of_writes_sub hostOps6 _ hostOps6_writes,
   fun {b} => region (W20_of_ne m ρ c b) fun w hw => (W20_arr m ρ c w).trans (((dat6 (V19 m ρ) c).arrAt_in w hw _).trans (A_eq6 (V19 m ρ) c w)),
   StableHlo.after_of_writes_sub hostOps7 _ hostOps7_writes,
   StableHlo.after_of_writes_sub hostOps7_1 _ hostOps7_1_writes,
   StableHlo.after_of_writes_sub hostOps7_2 _ hostOps7_2_writes,
   fun {b} => region (W24_of_ne m ρ c b) fun w hw => (W24_arr m ρ c w).trans (((dat7 (V23 m ρ) c).arrAt_in w hw _).trans (A_eq7 (V23 m ρ) c w)),
   StableHlo.after_of_writes_sub hostOps8 _ hostOps8_writes,
   fun {b} => region (W26_of_ne m ρ c b) fun w hw => (W26_arr m ρ c w).trans (((dat8 (V25 m ρ) c).arrAt_in w hw _).trans (A_eq8 (V25 m ρ) c w)),
   StableHlo.after_of_writes_sub hostOps9 _ hostOps9_writes,
   StableHlo.after_of_writes_sub hostOps9_1 _ hostOps9_1_writes,
   fun {b} => region (W29_of_ne m ρ c b) fun w hw => (W29_arr m ρ c w).trans (((dat9 (V28 m ρ) c).arrAt_in w hw _).trans (A_eq9 (V28 m ρ) c w)),
   StableHlo.after_of_writes_sub hostOps10 _ hostOps10_writes,
   fun {b} => region (W31_of_ne m ρ c b) fun w hw => (W31_arr m ρ c w).trans (((dat10 (V30 m ρ) c).arrAt_in w hw _).trans (A_eq10 (V30 m ρ) c w)),
   trivial⟩

theorem keep_main_arg0_0_3 : W3 m ρ c (Proc.devRef .tc main_arg0) = W0 m ρ c (Proc.devRef .tc main_arg0) :=
  carry (valid m ρ c) 0 3 (by decide) rfl rfl
theorem keep_main_v1_1_4 : W4 m ρ c (Proc.devRef .tc main_v1) = W1 m ρ c (Proc.devRef .tc main_v1) :=
  carry (valid m ρ c) 1 3 (by decide) rfl rfl
theorem keep_main_arg5_0_5 : W5 m ρ c (Proc.devRef .tc main_arg5) = W0 m ρ c (Proc.devRef .tc main_arg5) :=
  carry (valid m ρ c) 0 5 (by decide) rfl rfl
theorem keep_main_v15_5_7 : W7 m ρ c (Proc.devRef .tc main_v15) = W5 m ρ c (Proc.devRef .tc main_v15) :=
  carry (valid m ρ c) 5 2 (by decide) rfl rfl
theorem keep_main_arg2_0_6 : W6 m ρ c (Proc.devRef .tc main_arg2) = W0 m ρ c (Proc.devRef .tc main_arg2) :=
  carry (valid m ρ c) 0 6 (by decide) rfl rfl
theorem keep_main_v3_1_7 : W7 m ρ c (Proc.devRef .tc main_v3) = W1 m ρ c (Proc.devRef .tc main_v3) :=
  carry (valid m ρ c) 1 6 (by decide) rfl rfl
theorem keep_main_v11_3_7 : W7 m ρ c (Proc.devRef .tc main_v11) = W3 m ρ c (Proc.devRef .tc main_v11) :=
  carry (valid m ρ c) 3 4 (by decide) rfl rfl
theorem keep_main_arg3_0_7 : W7 m ρ c (Proc.devRef .tc main_arg3) = W0 m ρ c (Proc.devRef .tc main_arg3) :=
  carry (valid m ρ c) 0 7 (by decide) rfl rfl
theorem keep_main_arg6_0_7 : W7 m ρ c (Proc.devRef .tc main_arg6) = W0 m ρ c (Proc.devRef .tc main_arg6) :=
  carry (valid m ρ c) 0 7 (by decide) rfl rfl
theorem keep_main_arg9_0_7 : W7 m ρ c (Proc.devRef .tc main_arg9) = W0 m ρ c (Proc.devRef .tc main_arg9) :=
  carry (valid m ρ c) 0 7 (by decide) rfl rfl
theorem keep_main_arg10_0_7 : W7 m ρ c (Proc.devRef .tc main_arg10) = W0 m ρ c (Proc.devRef .tc main_arg10) :=
  carry (valid m ρ c) 0 7 (by decide) rfl rfl
theorem keep_main_arg11_0_7 : W7 m ρ c (Proc.devRef .tc main_arg11) = W0 m ρ c (Proc.devRef .tc main_arg11) :=
  carry (valid m ρ c) 0 7 (by decide) rfl rfl
theorem keep_main_arg12_0_7 : W7 m ρ c (Proc.devRef .tc main_arg12) = W0 m ρ c (Proc.devRef .tc main_arg12) :=
  carry (valid m ρ c) 0 7 (by decide) rfl rfl
theorem keep_main_arg0_0_8 : W8 m ρ c (Proc.devRef .tc main_arg0) = W0 m ρ c (Proc.devRef .tc main_arg0) :=
  carry (valid m ρ c) 0 8 (by decide) rfl rfl
theorem keep_main_v1_1_9 : W9 m ρ c (Proc.devRef .tc main_v1) = W1 m ρ c (Proc.devRef .tc main_v1) :=
  carry (valid m ρ c) 1 8 (by decide) rfl rfl
theorem keep_main_v40_2_9_10 : W10 m ρ c (Proc.devRef .tc main_v40_2) = W9 m ρ c (Proc.devRef .tc main_v40_2) :=
  carry (valid m ρ c) 9 1 (by decide) rfl rfl
theorem keep_main_v3_1_10 : W10 m ρ c (Proc.devRef .tc main_v3) = W1 m ρ c (Proc.devRef .tc main_v3) :=
  carry (valid m ρ c) 1 9 (by decide) rfl rfl
theorem keep_main_v41_10_11 : W11 m ρ c (Proc.devRef .tc main_v41) = W10 m ρ c (Proc.devRef .tc main_v41) :=
  carry (valid m ρ c) 10 1 (by decide) rfl rfl
theorem keep_main_arg7_0_11 : W11 m ρ c (Proc.devRef .tc main_arg7) = W0 m ρ c (Proc.devRef .tc main_arg7) :=
  carry (valid m ρ c) 0 11 (by decide) rfl rfl
theorem keep_main_arg8_0_11 : W11 m ρ c (Proc.devRef .tc main_arg8) = W0 m ρ c (Proc.devRef .tc main_arg8) :=
  carry (valid m ρ c) 0 11 (by decide) rfl rfl
theorem keep_main_arg13_0_11 : W11 m ρ c (Proc.devRef .tc main_arg13) = W0 m ρ c (Proc.devRef .tc main_arg13) :=
  carry (valid m ρ c) 0 11 (by decide) rfl rfl
theorem keep_main_arg14_0_11 : W11 m ρ c (Proc.devRef .tc main_arg14) = W0 m ρ c (Proc.devRef .tc main_arg14) :=
  carry (valid m ρ c) 0 11 (by decide) rfl rfl
theorem keep_main_arg2_0_12 : W12 m ρ c (Proc.devRef .tc main_arg2) = W0 m ρ c (Proc.devRef .tc main_arg2) :=
  carry (valid m ρ c) 0 12 (by decide) rfl rfl
theorem keep_main_arg4_0_13 : W13 m ρ c (Proc.devRef .tc main_arg4) = W0 m ρ c (Proc.devRef .tc main_arg4) :=
  carry (valid m ρ c) 0 13 (by decide) rfl rfl
theorem keep_main_v40_0_9_14 : W14 m ρ c (Proc.devRef .tc main_v40_0) = W9 m ρ c (Proc.devRef .tc main_v40_0) :=
  carry (valid m ρ c) 9 5 (by decide) rfl rfl
theorem keep_main_v1_1_15 : W15 m ρ c (Proc.devRef .tc main_v1) = W1 m ρ c (Proc.devRef .tc main_v1) :=
  carry (valid m ρ c) 1 14 (by decide) rfl rfl
theorem keep_main_arg5_0_16 : W16 m ρ c (Proc.devRef .tc main_arg5) = W0 m ρ c (Proc.devRef .tc main_arg5) :=
  carry (valid m ρ c) 0 16 (by decide) rfl rfl
theorem keep_main_v54_13_17 : W17 m ρ c (Proc.devRef .tc main_v54) = W13 m ρ c (Proc.devRef .tc main_v54) :=
  carry (valid m ρ c) 13 4 (by decide) rfl rfl
theorem keep_main_v58_16_18 : W18 m ρ c (Proc.devRef .tc main_v58) = W16 m ρ c (Proc.devRef .tc main_v58) :=
  carry (valid m ρ c) 16 2 (by decide) rfl rfl
theorem keep_main_v3_1_18 : W18 m ρ c (Proc.devRef .tc main_v3) = W1 m ρ c (Proc.devRef .tc main_v3) :=
  carry (valid m ρ c) 1 17 (by decide) rfl rfl
theorem keep_main_v11_3_18 : W18 m ρ c (Proc.devRef .tc main_v11) = W3 m ρ c (Proc.devRef .tc main_v11) :=
  carry (valid m ρ c) 3 15 (by decide) rfl rfl
theorem keep_main_arg3_0_18 : W18 m ρ c (Proc.devRef .tc main_arg3) = W0 m ρ c (Proc.devRef .tc main_arg3) :=
  carry (valid m ρ c) 0 18 (by decide) rfl rfl
theorem keep_main_arg6_0_18 : W18 m ρ c (Proc.devRef .tc main_arg6) = W0 m ρ c (Proc.devRef .tc main_arg6) :=
  carry (valid m ρ c) 0 18 (by decide) rfl rfl
theorem keep_main_arg9_0_18 : W18 m ρ c (Proc.devRef .tc main_arg9) = W0 m ρ c (Proc.devRef .tc main_arg9) :=
  carry (valid m ρ c) 0 18 (by decide) rfl rfl
theorem keep_main_arg10_0_18 : W18 m ρ c (Proc.devRef .tc main_arg10) = W0 m ρ c (Proc.devRef .tc main_arg10) :=
  carry (valid m ρ c) 0 18 (by decide) rfl rfl
theorem keep_main_arg11_0_18 : W18 m ρ c (Proc.devRef .tc main_arg11) = W0 m ρ c (Proc.devRef .tc main_arg11) :=
  carry (valid m ρ c) 0 18 (by decide) rfl rfl
theorem keep_main_arg12_0_18 : W18 m ρ c (Proc.devRef .tc main_arg12) = W0 m ρ c (Proc.devRef .tc main_arg12) :=
  carry (valid m ρ c) 0 18 (by decide) rfl rfl
theorem keep_main_v40_0_9_19 : W19 m ρ c (Proc.devRef .tc main_v40_0) = W9 m ρ c (Proc.devRef .tc main_v40_0) :=
  carry (valid m ρ c) 9 10 (by decide) rfl rfl
theorem keep_main_v1_1_20 : W20 m ρ c (Proc.devRef .tc main_v1) = W1 m ρ c (Proc.devRef .tc main_v1) :=
  carry (valid m ρ c) 1 19 (by decide) rfl rfl
theorem keep_main_v83_2_20_21 : W21 m ρ c (Proc.devRef .tc main_v83_2) = W20 m ρ c (Proc.devRef .tc main_v83_2) :=
  carry (valid m ρ c) 20 1 (by decide) rfl rfl
theorem keep_main_v3_1_21 : W21 m ρ c (Proc.devRef .tc main_v3) = W1 m ρ c (Proc.devRef .tc main_v3) :=
  carry (valid m ρ c) 1 20 (by decide) rfl rfl
theorem keep_main_v84_21_22 : W22 m ρ c (Proc.devRef .tc main_v84) = W21 m ρ c (Proc.devRef .tc main_v84) :=
  carry (valid m ρ c) 21 1 (by decide) rfl rfl
theorem keep_main_arg7_0_22 : W22 m ρ c (Proc.devRef .tc main_arg7) = W0 m ρ c (Proc.devRef .tc main_arg7) :=
  carry (valid m ρ c) 0 22 (by decide) rfl rfl
theorem keep_main_arg8_0_22 : W22 m ρ c (Proc.devRef .tc main_arg8) = W0 m ρ c (Proc.devRef .tc main_arg8) :=
  carry (valid m ρ c) 0 22 (by decide) rfl rfl
theorem keep_main_arg13_0_22 : W22 m ρ c (Proc.devRef .tc main_arg13) = W0 m ρ c (Proc.devRef .tc main_arg13) :=
  carry (valid m ρ c) 0 22 (by decide) rfl rfl
theorem keep_main_arg14_0_22 : W22 m ρ c (Proc.devRef .tc main_arg14) = W0 m ρ c (Proc.devRef .tc main_arg14) :=
  carry (valid m ρ c) 0 22 (by decide) rfl rfl
theorem keep_main_v54_13_23 : W23 m ρ c (Proc.devRef .tc main_v54) = W13 m ρ c (Proc.devRef .tc main_v54) :=
  carry (valid m ρ c) 13 10 (by decide) rfl rfl
theorem keep_main_arg4_0_24 : W24 m ρ c (Proc.devRef .tc main_arg4) = W0 m ρ c (Proc.devRef .tc main_arg4) :=
  carry (valid m ρ c) 0 24 (by decide) rfl rfl
theorem keep_main_v83_0_20_25 : W25 m ρ c (Proc.devRef .tc main_v83_0) = W20 m ρ c (Proc.devRef .tc main_v83_0) :=
  carry (valid m ρ c) 20 5 (by decide) rfl rfl
theorem keep_main_v1_1_26 : W26 m ρ c (Proc.devRef .tc main_v1) = W1 m ρ c (Proc.devRef .tc main_v1) :=
  carry (valid m ρ c) 1 25 (by decide) rfl rfl
theorem keep_main_arg5_0_27 : W27 m ρ c (Proc.devRef .tc main_arg5) = W0 m ρ c (Proc.devRef .tc main_arg5) :=
  carry (valid m ρ c) 0 27 (by decide) rfl rfl
theorem keep_main_v97_24_28 : W28 m ρ c (Proc.devRef .tc main_v97) = W24 m ρ c (Proc.devRef .tc main_v97) :=
  carry (valid m ρ c) 24 4 (by decide) rfl rfl
theorem keep_main_v101_27_29 : W29 m ρ c (Proc.devRef .tc main_v101) = W27 m ρ c (Proc.devRef .tc main_v101) :=
  carry (valid m ρ c) 27 2 (by decide) rfl rfl
theorem keep_main_v3_1_29 : W29 m ρ c (Proc.devRef .tc main_v3) = W1 m ρ c (Proc.devRef .tc main_v3) :=
  carry (valid m ρ c) 1 28 (by decide) rfl rfl
theorem keep_main_v11_3_29 : W29 m ρ c (Proc.devRef .tc main_v11) = W3 m ρ c (Proc.devRef .tc main_v11) :=
  carry (valid m ρ c) 3 26 (by decide) rfl rfl
theorem keep_main_arg3_0_29 : W29 m ρ c (Proc.devRef .tc main_arg3) = W0 m ρ c (Proc.devRef .tc main_arg3) :=
  carry (valid m ρ c) 0 29 (by decide) rfl rfl
theorem keep_main_arg6_0_29 : W29 m ρ c (Proc.devRef .tc main_arg6) = W0 m ρ c (Proc.devRef .tc main_arg6) :=
  carry (valid m ρ c) 0 29 (by decide) rfl rfl
theorem keep_main_v83_0_20_30 : W30 m ρ c (Proc.devRef .tc main_v83_0) = W20 m ρ c (Proc.devRef .tc main_v83_0) :=
  carry (valid m ρ c) 20 10 (by decide) rfl rfl
theorem keep_main_v97_24_31 : W31 m ρ c (Proc.devRef .tc main_v97) = W24 m ρ c (Proc.devRef .tc main_v97) :=
  carry (valid m ρ c) 24 7 (by decide) rfl rfl
theorem keep_main_arg4_0_2 : W2 m ρ c (Proc.devRef .tc main_arg4) = W0 m ρ c (Proc.devRef .tc main_arg4) :=
  carry (valid m ρ c) 0 2 (by decide) rfl rfl

end Cert.KernelIdeal.KCarry

end
-- ==== Proof.Spec.lean ====
import Idealize.ShloMosaic.PureOps.Ideal
import Idealize.ShloMosaic.Lib.ValueIdx

noncomputable section

namespace Gnn

open Idealize.ShloMosaic Idealize.ShloMosaic.ValueIdx

abbrev Arr2 (n k : Nat) : Type := (⟨2, ![n, k]⟩ : Shape).Idx → EReal

abbrev Arr3 : Type := (⟨3, ![3, 64, 64]⟩ : Shape).Idx → EReal

abbrev zero32 : EReal := Ideal.ofBits .f32 0x00000000#32

def mm {n : Nat} (x : Arr2 n 64) (w : Arr2 64 64) : Arr2 n 64 :=
  fun i => ∑ k : Fin 64, x (ix2 (i 0) k) * w (ix2 k (i 1))

theorem mm_apply {n : Nat} (x : Arr2 n 64) (w : Arr2 64 64) (p : Fin n) (q : Fin 64) :
    mm x w (ix2 p q) = ∑ k : Fin 64, x (ix2 p k) * w (ix2 k q) := rfl

def wSlice (W : Arr3) (l : Fin 3) : Arr2 64 64 := fun i => W (ix3 l (i 0) (i 1))

theorem wSlice_apply (W : Arr3) (l : Fin 3) (p q : Fin 64) : wSlice W l (ix2 p q) = W (ix3 l p q) := rfl

def bRow (b : Arr2 3 64) (l : Fin 3) : Arr2 1 64 := fun i => b (ix2 l (i 1))

theorem bRow_apply (b : Arr2 3 64) (l : Fin 3) (p : Fin 1) (q : Fin 64) : bRow b l (ix2 p q) = b (ix2 l q) := rfl

def addRow {n : Nat} (a : Arr2 n 64) (r : Arr2 1 64) : Arr2 n 64 := fun i => a i + r (ix2 0 (i 1))

theorem addRow_apply {n : Nat} (a : Arr2 n 64) (r : Arr2 1 64) (p : Fin n) (q : Fin 64) :
    addRow a r (ix2 p q) = a (ix2 p q) + r (ix2 0 q) := rfl

def relu {n : Nat} (a : Arr2 n 64) : Arr2 n 64 := fun i => max (a i) zero32

theorem relu_apply {n : Nat} (a : Arr2 n 64) (i : (⟨2, ![n, 64]⟩ : Shape).Idx) : relu a i = max (a i) zero32 := rfl

def add {n : Nat} (a b : Arr2 n 64) : Arr2 n 64 := fun i => a i + b i

theorem add_apply {n : Nat} (a b : Arr2 n 64) (i : (⟨2, ![n, 64]⟩ : Shape).Idx) : add a b i = a i + b i := rfl

def nodeUpd {n : Nat} (x : Arr2 n 64) (wr : Arr2 64 64) (agg : Arr2 n 64) (b : Arr2 1 64) : Arr2 n 64 :=
  addRow (add (mm x wr) agg) b

def proj {n : Nat} (x : Arr2 n 64) (w : Arr2 64 64) (b : Arr2 1 64) : Arr2 n 64 := addRow (mm x w) b

def edgeMlp {n : Nat} (ea : Arr2 n 64) (we : Arr2 64 64) (be : Arr2 1 64) (st : Arr2 n 64) (w1 : Arr2 64 64)
    (b1 : Arr2 1 64) : Arr2 n 64 :=
  proj (relu (add (proj ea we be) st)) w1 b1

theorem add_add_assoc {n : Nat} (a c d : Arr2 n 64) : add a (add c d) = add (add a c) d := by
  funext i; simp only [add]; exact (add_assoc _ _ _).symm

theorem off2 : (![0, 0] : Fin 2 → Nat) = fun _ => 0 := funext fun a => by
  match a with
  | ⟨0, _⟩ => rfl
  | ⟨1, _⟩ => rfl

end Gnn

end
-- ==== Proof.Net.lean ====
import proofs.«404994_j27599459844666_2_alg».proof.Proof.Spec

noncomputable section

namespace Gnn

abbrev NArr : Type := Arr2 50000 64
abbrev EArr : Type := Arr2 800000 64

structure Weights where
  Wr : Arr3
  Wn : Arr3
  We : Arr3
  b : Arr2 3 64
  EWe : Arr3
  Ebe : Arr2 3 64
  EWs : Arr3
  Ebs : Arr2 3 64
  EWt : Arr3
  Ebt : Arr2 3 64
  EW1 : Arr3
  Eb1 : Arr2 3 64

variable (gS gD : NArr → EArr) (seg : EArr → NArr) (P : Weights)

def msgR (l : Fin 3) (x : NArr) (ea : EArr) : EArr := add (mm (gS x) (wSlice P.Wn l)) (mm ea (wSlice P.We l))

def xPreR (l : Fin 3) (x : NArr) (ea : EArr) : NArr :=
  nodeUpd x (wSlice P.Wr l) (seg (msgR gS P l x ea)) (bRow P.b l)

def eaNextR (l : Fin 3) (x' : NArr) (ea : EArr) : EArr :=
  proj (relu (add (add (proj ea (wSlice P.EWe l) (bRow P.Ebe l)) (gS (proj x' (wSlice P.EWs l) (bRow P.Ebs l))))
    (gD (proj x' (wSlice P.EWt l) (bRow P.Ebt l))))) (wSlice P.EW1 l) (bRow P.Eb1 l)

def x1R (x : NArr) (ea : EArr) : NArr := relu (xPreR gS seg P 0 x ea)
def ea1R (x : NArr) (ea : EArr) : EArr := eaNextR gS gD P 0 (x1R gS seg P x ea) ea
def x2R (x : NArr) (ea : EArr) : NArr := relu (xPreR gS seg P 1 (x1R gS seg P x ea) (ea1R gS gD seg P x ea))
def ea2R (x : NArr) (ea : EArr) : EArr := eaNextR gS gD P 1 (x2R gS gD seg P x ea) (ea1R gS gD seg P x ea)
def outXR (x : NArr) (ea : EArr) : NArr := xPreR gS seg P 2 (x2R gS gD seg P x ea) (ea2R gS gD seg P x ea)

def msgK (l : Fin 3) (x : NArr) (ea : EArr) : EArr := add (gS (mm x (wSlice P.Wn l))) (mm ea (wSlice P.We l))

def xPreK (l : Fin 3) (x : NArr) (ea : EArr) : NArr :=
  nodeUpd x (wSlice P.Wr l) (seg (msgK gS P l x ea)) (bRow P.b l)

def eaNextK (l : Fin 3) (x' : NArr) (ea : EArr) : EArr :=
  edgeMlp ea (wSlice P.EWe l) (bRow P.Ebe l)
    (add (gS (proj x' (wSlice P.EWs l) (bRow P.Ebs l))) (gD (proj x' (wSlice P.EWt l) (bRow P.Ebt l))))
    (wSlice P.EW1 l) (bRow P.Eb1 l)

def x1K (x : NArr) (ea : EArr) : NArr := relu (xPreK gS seg P 0 x ea)
def ea1K (x : NArr) (ea : EArr) : EArr := eaNextK gS gD P 0 (x1K gS seg P x ea) ea
def x2K (x : NArr) (ea : EArr) : NArr := relu (xPreK gS seg P 1 (x1K gS seg P x ea) (ea1K gS gD seg P x ea))
def ea2K (x : NArr) (ea : EArr) : EArr := eaNextK gS gD P 1 (x2K gS gD seg P x ea) (ea1K gS gD seg P x ea)
def outXK (x : NArr) (ea : EArr) : NArr := xPreK gS seg P 2 (x2K gS gD seg P x ea) (ea2K gS gD seg P x ea)

variable {gS gD seg P}

theorem msgK_eq (hrow : ∀ (a : NArr) (w : Arr2 64 64), gS (mm a w) = mm (gS a) w) (l : Fin 3) (x : NArr) (ea : EArr) :
    msgK gS P l x ea = msgR gS P l x ea := by
  unfold msgK msgR; rw [hrow]

theorem xPreK_eq (hrow : ∀ (a : NArr) (w : Arr2 64 64), gS (mm a w) = mm (gS a) w) (l : Fin 3) (x : NArr) (ea : EArr) :
    xPreK gS seg P l x ea = xPreR gS seg P l x ea := by
  unfold xPreK xPreR; rw [msgK_eq hrow]

theorem eaNextK_eq (l : Fin 3) (x' : NArr) (ea : EArr) : eaNextK gS gD P l x' ea = eaNextR gS gD P l x' ea := by
  unfold eaNextK eaNextR edgeMlp; rw [add_add_assoc]

theorem x1K_eq (hrow : ∀ (a : NArr) (w : Arr2 64 64), gS (mm a w) = mm (gS a) w) (x : NArr) (ea : EArr) :
    x1K gS seg P x ea = x1R gS seg P x ea := by
  unfold x1K x1R; rw [xPreK_eq hrow]

theorem ea1K_eq (hrow : ∀ (a : NArr) (w : Arr2 64 64), gS (mm a w) = mm (gS a) w) (x : NArr) (ea : EArr) :
    ea1K gS gD seg P x ea = ea1R gS gD seg P x ea := by
  unfold ea1K ea1R; rw [eaNextK_eq, x1K_eq hrow]

theorem x2K_eq (hrow : ∀ (a : NArr) (w : Arr2 64 64), gS (mm a w) = mm (gS a) w) (x : NArr) (ea : EArr) :
    x2K gS gD seg P x ea = x2R gS gD seg P x ea := by
  unfold x2K x2R; rw [xPreK_eq hrow, x1K_eq hrow, ea1K_eq hrow]

theorem ea2K_eq (hrow : ∀ (a : NArr) (w : Arr2 64 64), gS (mm a w) = mm (gS a) w) (x : NArr) (ea : EArr) :
    ea2K gS gD seg P x ea = ea2R gS gD seg P x ea := by
  unfold ea2K ea2R; rw [eaNextK_eq, x2K_eq hrow, ea1K_eq hrow]

theorem outXK_eq (hrow : ∀ (a : NArr) (w : Arr2 64 64), gS (mm a w) = mm (gS a) w) (x : NArr) (ea : EArr) :
    outXK gS gD seg P x ea = outXR gS gD seg P x ea := by
  unfold outXK outXR; rw [xPreK_eq hrow, x2K_eq hrow, ea2K_eq hrow]

theorem rows_mm (r : Fin 800000 → Fin 50000) (g : NArr → EArr)
    (hg : ∀ (a : NArr) (e : Fin 800000) (q : Fin 64), g a (Idealize.ShloMosaic.ValueIdx.ix2 e q) = a (Idealize.ShloMosaic.ValueIdx.ix2 (r e) q))
    (a : NArr) (w : Arr2 64 64) : g (mm a w) = mm (g a) w := by
  funext i
  obtain ⟨e, q, rfl⟩ : ∃ (e : Fin 800000) (q : Fin 64), i = Idealize.ShloMosaic.ValueIdx.ix2 e q :=
    ⟨i 0, i 1, Idealize.ShloMosaic.ValueIdx.eq_ix2 i⟩
  rw [hg, mm_apply, mm_apply]
  exact Finset.sum_congr rfl fun k _ => by rw [hg]

end Gnn

end
-- ==== Proof.KBase.lean ====
import proofs.«404994_j27599459844666_2_alg».proof.Proof.KDefs
import proofs.«404994_j27599459844666_2_alg».proof.Proof.KCarry
import proofs.«404994_j27599459844666_2_alg».proof.Proof.Net
import Idealize.ShloMosaic.Lib.StableHlo.Run
import Idealize.ShloMosaic.PureOps.Ideal
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KCarry Idealize.ShloMosaic Idealize.ShloMosaic.TcCoe Idealize.SL.Sem Idealize.ShloMosaic.StableHlo Idealize.ShloMosaic.ValueIdx

theorem toBuf_self (r : Ref sig .tc) (h2 : r.space ≠ .host) (h3 : r.isScoped = false) (v : r.ty.Contents (Elt Ideal)) :
    (TRef.of (T := r.ty) r rfl h2 h3).toBuf v = v := rfl
theorem ofBuf_self (r : Ref sig .tc) (h2 : r.space ≠ .host) (h3 : r.isScoped = false) (v : r.ty.Contents (Elt Ideal)) :
    (TRef.of (T := r.ty) r rfl h2 h3).ofBuf v = v := rfl

/-- A unit slice of the weight stack at layer `l`, its unit axis dropped, is the layer's matrix. -/
theorem wSlice_eq (l : Fin 3) (W : Gnn.Arr3) (hs : S3x64x64.Slices ![l.val, 0, 0] S1x64x64) (hc : S1x64x64.ShapeCasts S64x64) :
    shapeCast S64x64 (extractStridedSlice S1x64x64 ![l.val, 0, 0] W hs) hc = Gnn.wSlice W l := by
  funext j
  obtain ⟨p, q, rfl⟩ : ∃ (p : Fin 64) (q : Fin 64), j = ix2 p q := ⟨j 0, j 1, eq_ix2 j⟩
  rw [Gnn.wSlice_apply]
  refine (shapeCast_apply _ hc (ix2 p q) (ix3 (0 : Fin 1) p q) ?_).trans ?_
  · rw [Shape.rowMajor_val_three, Shape.rowMajor_val_two]
    show (0 * 64 + p.val) * 64 + q.val = p.val * 64 + q.val
    omega
  · refine extractStridedSlice_apply _ W hs _ (ix3 l p q) fun a => ?_
    match a with
    | ⟨0, _⟩ => show l.val = l.val + 0; rfl
    | ⟨1, _⟩ => show p.val = 0 + p.val; omega
    | ⟨2, _⟩ => show q.val = 0 + q.val; omega

/-- A unit slice of the bias stack at layer `l`, reshaped to one row, is the layer's bias row. -/
theorem bRow_eq (l : Fin 3) (b : Gnn.Arr2 3 64) (hs : S3x64.Slices ![l.val, 0] S1x64) (hc : S1x64.ShapeCasts S64) (hc' : S64.ShapeCasts S1x64) :
    shapeCast S1x64 (shapeCast S64 (extractStridedSlice S1x64 ![l.val, 0] b hs) hc) hc' = Gnn.bRow b l := by
  funext j
  obtain ⟨p, q, rfl⟩ : ∃ (p : Fin 1) (q : Fin 64), j = ix2 p q := ⟨j 0, j 1, eq_ix2 j⟩
  rw [Gnn.bRow_apply]
  have hp : p.val = 0 := by omega
  refine (shapeCast_apply _ hc' (ix2 p q) (ix1 q) ?_).trans ?_
  · rw [Shape.rowMajor_val_one, Shape.rowMajor_val_two]
    show q.val = p.val * 64 + q.val
    omega
  refine (shapeCast_apply _ hc (ix1 q) (ix2 (0 : Fin 1) q) ?_).trans ?_
  · rw [Shape.rowMajor_val_one, Shape.rowMajor_val_two]
    show 0 * 64 + q.val = q.val
    omega
  · refine extractStridedSlice_apply _ b hs _ (ix2 l q) fun a => ?_
    match a with
    | ⟨0, _⟩ => show l.val = l.val + 0; rfl
    | ⟨1, _⟩ => show q.val = 0 + q.val; omega

variable (m : (ℓ : Loc nD τ sig) → Buf (Elt Ideal) ℓ) (ρ : Dev nD → PrngReg)

theorem W0_at (c : Dev nD) (b : Ref sig .tc) : W0 m ρ c (Proc.devRef .tc b) = m ((c : Thread nD τ).loc b) := rfl

theorem src_at1 (c : Dev nD) : W1 m ρ c (Proc.devRef .tc main_v1) = srcK (m ((c : Thread nD τ).loc main_arg1)) := by
  show StableHlo.after hostOps0 (W0 m ρ c) (Proc.devRef .tc main_v1) = _
  dsimp only [hostOps0]
  after_results
  rfl

theorem dst_at1 (c : Dev nD) : W1 m ρ c (Proc.devRef .tc main_v3) = dstK (m ((c : Thread nD τ).loc main_arg1)) := by
  show StableHlo.after hostOps0 (W0 m ρ c) (Proc.devRef .tc main_v3) = _
  dsimp only [hostOps0]
  after_results
  rfl

theorem deg_at1 (c : Dev nD) : W1 m ρ c (Proc.devRef .tc main_v7) = degK (F := Ideal) (m ((c : Thread nD τ).loc main_arg1)) := by
  show StableHlo.after hostOps0 (W0 m ρ c) (Proc.devRef .tc main_v7) = _
  dsimp only [hostOps0]
  after_results
  rfl

theorem one_at1 (c : Dev nD) : W1 m ρ c (Proc.devRef .tc main_cst_1) = constant (F := Ideal) S_ .f32 0x3F800000#32 := by
  show StableHlo.after hostOps0 (W0 m ρ c) (Proc.devRef .tc main_cst_1) = _
  dsimp only [hostOps0]
  after_results

theorem clip_at2 (c : Dev nD) : W2 m ρ c (Proc.devRef .tc main_v8)
    = maximumf (broadcastInDim S50000 ![] bcast_S_S50000 (constant (F := Ideal) S_ .f32 0x3F800000#32)) (degK (F := Ideal) (m ((c : Thread nD τ).loc main_arg1))) := by
  show StableHlo.after hostOps0_1 (W1 m ρ c) (Proc.devRef .tc main_v8) = _
  have h7 := deg_at1 m ρ c
  have h1 := one_at1 m ρ c
  generalize W1 m ρ c = V at h7 h1 ⊢
  dsimp only [hostOps0_1]
  after_results
  simp only [TRef.ofBuf, TRef.toBuf, cast_eq]
  rw [h7, h1]
  rfl

theorem inv_at3 (c : Dev nD) : W3 m ρ c (Proc.devRef .tc main_v11) = invK (F := Ideal) (m ((c : Thread nD τ).loc main_arg1)) := by
  show StableHlo.after hostOps0_2 (W2 m ρ c) (Proc.devRef .tc main_v11) = _
  have h8 := clip_at2 m ρ c
  generalize W2 m ρ c = V at h8 ⊢
  dsimp only [hostOps0_2]
  after_results
  rw [h8]
  rfl

def weightsK (c : Dev nD) : Gnn.Weights where
  Wr := m ((c : Thread nD τ).loc main_arg3)
  Wn := m ((c : Thread nD τ).loc main_arg4)
  We := m ((c : Thread nD τ).loc main_arg5)
  b := m ((c : Thread nD τ).loc main_arg6)
  EWe := m ((c : Thread nD τ).loc main_arg7)
  Ebe := m ((c : Thread nD τ).loc main_arg8)
  EWs := m ((c : Thread nD τ).loc main_arg9)
  Ebs := m ((c : Thread nD τ).loc main_arg10)
  EWt := m ((c : Thread nD τ).loc main_arg11)
  Ebt := m ((c : Thread nD τ).loc main_arg12)
  EW1 := m ((c : Thread nD τ).loc main_arg13)
  Eb1 := m ((c : Thread nD τ).loc main_arg14)

abbrev gSK (c : Dev nD) : Gnn.NArr → Gnn.EArr := fun x => takeK (F := Ideal) x (srcK (m ((c : Thread nD τ).loc main_arg1)))
abbrev gDK (c : Dev nD) : Gnn.NArr → Gnn.EArr := fun x => takeK (F := Ideal) x (dstK (m ((c : Thread nD τ).loc main_arg1)))
abbrev sgK (c : Dev nD) : Gnn.EArr → Gnn.NArr := fun a => segK (F := Ideal) (m ((c : Thread nD τ).loc main_arg1)) a

end Cert.KernelIdeal.KV

end
-- ==== Proof.MatRow2000.lean ====
import proofs.«404994_j27599459844666_2_alg».proof.Proof.Gen.KernelIdeal
import proofs.«404994_j27599459844666_2_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx

theorem mm2000_lhs_0 (i : S2000x64.Idx) (k : dot_S2000x64_S64x64_S2000x64_1_0_0_1_n_n.contr.Idx) :
    (dot_S2000x64_S64x64_S2000x64_1_0_0_1_n_n.lhsIdx i k 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl

theorem mm2000_lhs_1 (i : S2000x64.Idx) (k : dot_S2000x64_S64x64_S2000x64_1_0_0_1_n_n.contr.Idx) :
    (dot_S2000x64_S64x64_S2000x64_1_0_0_1_n_n.lhsIdx i k 1).val = (k ⟨0, by decide⟩).val :=
  dot_S2000x64_S64x64_S2000x64_1_0_0_1_n_n.lhsIdx_val_of_single rfl i k

theorem mm2000_rhs_0 (i : S2000x64.Idx) (k : dot_S2000x64_S64x64_S2000x64_1_0_0_1_n_n.contr.Idx) :
    (dot_S2000x64_S64x64_S2000x64_1_0_0_1_n_n.rhsIdx i k 0).val = (k ⟨0, by decide⟩).val :=
  dot_S2000x64_S64x64_S2000x64_1_0_0_1_n_n.rhsIdx_val_of_single rfl i k

theorem mm2000_rhs_1 (i : S2000x64.Idx) (k : dot_S2000x64_S64x64_S2000x64_1_0_0_1_n_n.contr.Idx) :
    (dot_S2000x64_S64x64_S2000x64_1_0_0_1_n_n.rhsIdx i k 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A product of a block of 2000 rows with a 64×64 weight into a zero accumulator is, entry by entry, the row-by-column sum. -/
theorem mm2000_apply {φ₁ φ₂ : FTy} (a : FVec Ideal S2000x64 φ₁) (b : FVec Ideal S64x64 φ₂) (p : Fin 2000) (q : Fin 64) :
    matmul dot_S2000x64_S64x64_S2000x64_1_0_0_1_n_n none a b (constant (F := Ideal) S2000x64 .f32 0x00000000#32) (ix2 p q)
      = ∑ k : Fin 64, a (ix2 p k) * b (ix2 k q) := by
  refine (Ideal.matmul_constant_zero_apply dot_S2000x64_S64x64_S2000x64_1_0_0_1_n_n none a b (ix2 p q)).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact mm2000_lhs_0 _ _
    | ⟨1, _⟩ => exact (mm2000_lhs_1 _ _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (mm2000_rhs_0 _ _).trans hk
    | ⟨1, _⟩ => exact mm2000_rhs_1 _ _)
  rw [el, er]

/-- One row broadcast down a block of 2000 rows is that row at every row. -/
theorem row2000_apply (b : Vec Ideal S1x64 .f32) (p : Fin 2000) (q : Fin 64) :
    broadcastTo S2000x64 b broadcasts_S1x64_S2000x64 (ix2 p q) = b (ix2 0 q) :=
  broadcastTo_apply b broadcasts_S1x64_S2000x64 (ix2 p q) (ix2 0 q) (fun a => by
    match a with
    | ⟨0, _⟩ => rfl
    | ⟨1, _⟩ => rfl)

/-- Blocks of 2000 rows, block `t` at block row `t`, cover the 50000 rows: row `r` lies in block `r / 2000`. -/
theorem cover2000 {N : Nat} (hN : N = 25) {idx : Fin N → Fin 2 → Nat} (h : ∀ t, idx t 0 = t.val ∧ idx t 1 = 0)
    (i : S50000x64.Idx) :
    ∃ t : Fin N, ∀ a : Fin 2, idx t a * S2000x64.size a ≤ (i a).val ∧ (i a).val < idx t a * S2000x64.size a + S2000x64.size a := by
  have hi0 : (i 0).val < 50000 := (i 0).isLt
  have hi1 : (i 1).val < 64 := (i 1).isLt
  have hlt : (i 0).val / 2000 < N := by rw [hN]; omega
  obtain ⟨e0, e1⟩ := h ⟨(i 0).val / 2000, hlt⟩
  refine ⟨⟨(i 0).val / 2000, hlt⟩, fun a => ?_⟩
  match a with
  | ⟨0, _⟩ =>
    show idx ⟨(i 0).val / 2000, hlt⟩ 0 * 2000 ≤ (i 0).val ∧ (i 0).val < idx ⟨(i 0).val / 2000, hlt⟩ 0 * 2000 + 2000
    rw [e0]; show (i 0).val / 2000 * 2000 ≤ (i 0).val ∧ (i 0).val < (i 0).val / 2000 * 2000 + 2000; omega
  | ⟨1, _⟩ =>
    show idx ⟨(i 0).val / 2000, hlt⟩ 1 * 64 ≤ (i 1).val ∧ (i 1).val < idx ⟨(i 0).val / 2000, hlt⟩ 1 * 64 + 64
    rw [e1]; omega

end Cert.KernelIdeal.RegVal

end
-- ==== Proof.RegVal0.lean ====
import proofs.«404994_j27599459844666_2_alg».proof.Proof.Gen.KernelIdeal.Frame
import proofs.«404994_j27599459844666_2_alg».proof.Proof.MatRow2000
import Idealize.ShloMosaic.Lib.Pipeline.Value
import Idealize.ShloMosaic.PureOps.Ideal.Laws
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem r0_pay_apply (x0 : Vec Ideal S2000x64 .f32) (x1 : Vec Ideal S64x64 .f32) (p : Fin 2000) (q : Fin 64) :
    k0_pay1 (F := Ideal) x0 x1 (ix2 p q) = ∑ k : Fin 64, x0 (ix2 p k) * x1 (ix2 k q) := by
  unfold k0_pay1
  simp only [shapeCast_self]
  rw [mm2000_apply]
  simp only [truncf_apply]

theorem r0_block_apply (A : Gnn.Arr2 50000 64) (W : Gnn.Arr2 64 64) (x0 : Vec Ideal S2000x64 .f32) (x1 : Vec Ideal S64x64 .f32)
    (b : Nat) (j : S2000x64.Idx) (i : S50000x64.Idx)
    (hi0 : (i 0).val = b * 2000 + (j 0).val) (hi1 : (i 1).val = (j 1).val)
    (h0 : ∀ (y : S2000x64.Idx) (i' : S50000x64.Idx), (i' 0).val = b * 2000 + (y 0).val → (i' 1).val = (y 1).val → x0 y = A i')
    (h1 : ∀ y : S64x64.Idx, x1 y = W y) :
    k0_pay1 (F := Ideal) x0 x1 j = Gnn.mm A W i := by
  obtain ⟨p, q, rfl⟩ : ∃ (p : Fin 2000) (q : Fin 64), j = ix2 p q := ⟨j 0, j 1, eq_ix2 j⟩
  obtain ⟨r, s, rfl⟩ : ∃ (r : Fin 50000) (s : Fin 64), i = ix2 r s := ⟨i 0, i 1, eq_ix2 i⟩
  rw [r0_pay_apply, Gnn.mm_apply]
  have hs : s = q := Fin.ext hi1
  subst hs
  refine Finset.sum_congr rfl fun k _ => ?_
  rw [h0 (ix2 p k) (ix2 r k) hi0 rfl, h1]

theorem r0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem r0_flushed (c : Dev nD) (t : Fin cfg0.N) :
    (dat0 (F := Ideal) V c).flushed 2 t
      = ((cfg0.win 2).blk t).view.read (Elt Ideal) (Gnn.mm (V c main_arg0) (V c main_v13)) := by
  show (cfg0.win 2).cut (grid0.coords t) ((dat0 V c).after 2 t) = _
  rw [after0_2]
  unfold out0_2
  rw [View.canon_unit_zero Gnn.off2]
  simp only [View.ld_unit_zero (S := S2000x64) Gnn.off2, View.ld_unit_zero (S := S64x64) Gnn.off2]
  obtain ⟨e0, e1, e2, e3, e4, e5⟩ := r0_idx t
  funext j
  show k0_pay1 (F := Ideal) (iblk0 V c 0 t) (iblk0 V c 1 t) j
    = Gnn.mm (V c main_arg0) (V c main_v13) (((cfg0.win 2).blk t).view.emb j)
  refine r0_block_apply (V c main_arg0) (V c main_v13) (iblk0 V c 0 t) (iblk0 V c 1 t) t.val j _ ?_ ?_ ?_ ?_
  · show win0_2.index t (0 : Fin 2) * 2000 + 1 * (j 0).val = t.val * 2000 + (j 0).val
    omega
  · show win0_2.index t (1 : Fin 2) * 64 + 1 * (j 1).val = (j 1).val
    omega
  · intro y i' hy0 hy1
    show V c main_arg0 (((cfg0.win 0).blk t).view.emb y) = V c main_arg0 i'
    have h : ((cfg0.win 0).blk t).view.emb y = i' := by
      funext a; apply Fin.ext
      match a with
      | ⟨0, _⟩ => show win0_0.index t (0 : Fin 2) * 2000 + 1 * (y 0).val = (i' 0).val; omega
      | ⟨1, _⟩ => show win0_0.index t (1 : Fin 2) * 64 + 1 * (y 1).val = (i' 1).val; omega
    rw [h]
  · intro y
    show V c main_v13 (((cfg0.win 1).blk t).view.emb y) = V c main_v13 y
    have h : ((cfg0.win 1).blk t).view.emb y = y := by
      funext a; apply Fin.ext
      match a with
      | ⟨0, _⟩ => show win0_1.index t (0 : Fin 2) * 64 + 1 * (y 0).val = (y 0).val; omega
      | ⟨1, _⟩ => show win0_1.index t (1 : Fin 2) * 64 + 1 * (y 1).val = (y 1).val; omega
    rw [h]

theorem r0_cover (i : S50000x64.Idx) :
    ∃ t : Fin cfg0.N, (cfg0.win 2).flush t = true ∧ i ∈ ((cfg0.win 2).blk t).view.set := by
  obtain ⟨t, h⟩ := cover2000 N_0 (idx := win0_2.index) (fun t => (r0_idx t).2.2.2.2) i
  refine ⟨t, flush0_2 t, ?_⟩
  show i ∈ ((View.whole main_v14).slice (win0_2.rect t)).set
  rw [View.set_slice_whole, Rect.mem_set_unit]
  exact h

theorem out0 (c : Dev nD) : (dat0 (F := Ideal) V c).arrAt 2 cfg0.N
    = Gnn.mm (V c main_arg0) (V c main_v13) := by
  exact (dat0 V c).arrAt_eq_of_cover 2 (Gnn.mm (V c main_arg0) (V c main_v13)) (fun t _ => r0_flushed V c t) r0_cover

end Cert.KernelIdeal.RegVal

end
-- ==== Proof.RegVal2.lean ====
import proofs.«404994_j27599459844666_2_alg».proof.Proof.Gen.KernelIdeal.Frame
import proofs.«404994_j27599459844666_2_alg».proof.Proof.MatRow2000
import Idealize.ShloMosaic.Lib.Pipeline.Value
import Idealize.ShloMosaic.PureOps.Ideal.Laws
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem r2_pay1_apply (x0 : Vec Ideal S2000x64 .f32) (x1 : Vec Ideal S64x64 .f32) (x2 : Vec Ideal S2000x64 .f32) (x3 : Vec Ideal S1x64 .f32)
    (p : Fin 2000) (q : Fin 64) :
    k2_pay1 (F := Ideal) x0 x1 x2 x3 (ix2 p q)
      = max (((∑ k : Fin 64, x0 (ix2 p k) * x1 (ix2 k q)) + x2 (ix2 p q)) + x3 (ix2 0 q)) Gnn.zero32 := by
  unfold k2_pay1
  simp only [shapeCast_self]
  rw [maximumf_apply, addf_apply, addf_apply, mm2000_apply, row2000_apply, broadcast_apply]
  simp only [truncf_apply]
  rfl

theorem r2_idx_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = t.val ∧ win2_8.index t (1 : Fin 2) = 0)
    ∧ (win2_9.index t (0 : Fin 2) = t.val ∧ win2_9.index t (1 : Fin 2) = 0)
    ∧ (win2_10.index t (0 : Fin 2) = t.val ∧ win2_10.index t (1 : Fin 2) = 0) :=
  (by decide +kernel : ∀ t : Fin grid2.N, _)

theorem r2_lt (t : Fin cfg2.N) : t.val < 25 := lt_of_lt_of_eq t.isLt N_2

def r2_row (t : Fin cfg2.N) (p : Fin 2000) : Fin 50000 :=
  ⟨t.val * 2000 + p.val, by have := r2_lt t; have := p.isLt; omega⟩

theorem r2_emb0 (t : Fin cfg2.N) (p : Fin 2000) (k : Fin 64) :
    ((cfg2.win 0).blk t).view.emb (ix2 p k) = ix2 (r2_row t p) k := by
  obtain ⟨⟨e0, e1⟩, -⟩ := r2_idx_facts t
  funext a; apply Fin.ext
  match a with
  | ⟨0, _⟩ => show win2_0.index t (0 : Fin 2) * 2000 + 1 * p.val = t.val * 2000 + p.val; omega
  | ⟨1, _⟩ => show win2_0.index t (1 : Fin 2) * 64 + 1 * k.val = k.val; omega

theorem r2_emb2 (t : Fin cfg2.N) (p : Fin 2000) (k : Fin 64) :
    ((cfg2.win 2).blk t).view.emb (ix2 p k) = ix2 (r2_row t p) k := by
  obtain ⟨-, -, ⟨e0, e1⟩, -⟩ := r2_idx_facts t
  funext a; apply Fin.ext
  match a with
  | ⟨0, _⟩ => show win2_2.index t (0 : Fin 2) * 2000 + 1 * p.val = t.val * 2000 + p.val; omega
  | ⟨1, _⟩ => show win2_2.index t (1 : Fin 2) * 64 + 1 * k.val = k.val; omega

theorem r2_emb8 (t : Fin cfg2.N) (p : Fin 2000) (k : Fin 64) :
    ((cfg2.win 8).blk t).view.emb (ix2 p k) = ix2 (r2_row t p) k := by
  obtain ⟨-, -, -, -, -, -, -, -, ⟨e0, e1⟩, -⟩ := r2_idx_facts t
  funext a; apply Fin.ext
  match a with
  | ⟨0, _⟩ => show win2_8.index t (0 : Fin 2) * 2000 + 1 * p.val = t.val * 2000 + p.val; omega
  | ⟨1, _⟩ => show win2_8.index t (1 : Fin 2) * 64 + 1 * k.val = k.val; omega

theorem r2_emb9 (t : Fin cfg2.N) (p : Fin 2000) (k : Fin 64) :
    ((cfg2.win 9).blk t).view.emb (ix2 p k) = ix2 (r2_row t p) k := by
  obtain ⟨-, -, -, -, -, -, -, -, -, ⟨e0, e1⟩, -⟩ := r2_idx_facts t
  funext a; apply Fin.ext
  match a with
  | ⟨0, _⟩ => show win2_9.index t (0 : Fin 2) * 2000 + 1 * p.val = t.val * 2000 + p.val; omega
  | ⟨1, _⟩ => show win2_9.index t (1 : Fin 2) * 64 + 1 * k.val = k.val; omega

theorem r2_emb10 (t : Fin cfg2.N) (p : Fin 2000) (k : Fin 64) :
    ((cfg2.win 10).blk t).view.emb (ix2 p k) = ix2 (r2_row t p) k := by
  obtain ⟨-, -, -, -, -, -, -, -, -, -, ⟨e0, e1⟩⟩ := r2_idx_facts t
  funext a; apply Fin.ext
  match a with
  | ⟨0, _⟩ => show win2_10.index t (0 : Fin 2) * 2000 + 1 * p.val = t.val * 2000 + p.val; omega
  | ⟨1, _⟩ => show win2_10.index t (1 : Fin 2) * 64 + 1 * k.val = k.val; omega

theorem r2_emb1 (t : Fin cfg2.N) (k q : Fin 64) : ((cfg2.win 1).blk t).view.emb (ix2 k q) = ix2 k q := by
  obtain ⟨-, ⟨e0, e1⟩, -⟩ := r2_idx_facts t
  funext a; apply Fin.ext
  match a with
  | ⟨0, _⟩ => show win2_1.index t (0 : Fin 2) * 64 + 1 * k.val = k.val; omega
  | ⟨1, _⟩ => show win2_1.index t (1 : Fin 2) * 64 + 1 * q.val = q.val; omega

theorem r2_emb4 (t : Fin cfg2.N) (k q : Fin 64) : ((cfg2.win 4).blk t).view.emb (ix2 k q) = ix2 k q := by
  obtain ⟨-, -, -, -, ⟨e0, e1⟩, -⟩ := r2_idx_facts t
  funext a; apply Fin.ext
  match a with
  | ⟨0, _⟩ => show win2_4.index t (0 : Fin 2) * 64 + 1 * k.val = k.val; omega
  | ⟨1, _⟩ => show win2_4.index t (1 : Fin 2) * 64 + 1 * q.val = q.val; omega

theorem r2_emb6 (t : Fin cfg2.N) (k q : Fin 64) : ((cfg2.win 6).blk t).view.emb (ix2 k q) = ix2 k q := by
  obtain ⟨-, -, -, -, -, -, ⟨e0, e1⟩, -⟩ := r2_idx_facts t
  funext a; apply Fin.ext
  match a with
  | ⟨0, _⟩ => show win2_6.index t (0 : Fin 2) * 64 + 1 * k.val = k.val; omega
  | ⟨1, _⟩ => show win2_6.index t (1 : Fin 2) * 64 + 1 * q.val = q.val; omega

theorem r2_emb3 (t : Fin cfg2.N) (z : Fin 1) (q : Fin 64) : ((cfg2.win 3).blk t).view.emb (ix2 z q) = ix2 z q := by
  obtain ⟨-, -, -, ⟨e0, e1⟩, -⟩ := r2_idx_facts t
  funext a; apply Fin.ext
  match a with
  | ⟨0, _⟩ => show win2_3.index t (0 : Fin 2) * 1 + 1 * z.val = z.val; omega
  | ⟨1, _⟩ => show win2_3.index t (1 : Fin 2) * 64 + 1 * q.val = q.val; omega

theorem r2_emb5 (t : Fin cfg2.N) (z : Fin 1) (q : Fin 64) : ((cfg2.win 5).blk t).view.emb (ix2 z q) = ix2 z q := by
  obtain ⟨-, -, -, -, -, ⟨e0, e1⟩, -⟩ := r2_idx_facts t
  funext a; apply Fin.ext
  match a with
  | ⟨0, _⟩ => show win2_5.index t (0 : Fin 2) * 1 + 1 * z.val = z.val; omega
  | ⟨1, _⟩ => show win2_5.index t (1 : Fin 2) * 64 + 1 * q.val = q.val; omega

theorem r2_emb7 (t : Fin cfg2.N) (z : Fin 1) (q : Fin 64) : ((cfg2.win 7).blk t).view.emb (ix2 z q) = ix2 z q := by
  obtain ⟨-, -, -, -, -, -, -, ⟨e0, e1⟩, -⟩ := r2_idx_facts t
  funext a; apply Fin.ext
  match a with
  | ⟨0, _⟩ => show win2_7.index t (0 : Fin 2) * 1 + 1 * z.val = z.val; omega
  | ⟨1, _⟩ => show win2_7.index t (1 : Fin 2) * 64 + 1 * q.val = q.val; omega

theorem r2_blk0_apply (c : Dev nD) (t : Fin cfg2.N) (p : Fin 2000) (k : Fin 64) :
    iblk2 V c 0 t (ix2 p k) = V c main_arg0 (ix2 (r2_row t p) k) := by
  show V c main_arg0 (((cfg2.win 0).blk t).view.emb (ix2 p k)) = _
  rw [r2_emb0]

theorem r2_blk2_apply (c : Dev nD) (t : Fin cfg2.N) (p : Fin 2000) (k : Fin 64) :
    iblk2 V c 2 t (ix2 p k) = V c main_v24 (ix2 (r2_row t p) k) := by
  show V c main_v24 (((cfg2.win 2).blk t).view.emb (ix2 p k)) = _
  rw [r2_emb2]

theorem r2_blk1_apply (c : Dev nD) (t : Fin cfg2.N) (k q : Fin 64) :
    iblk2 V c 1 t (ix2 k q) = V c main_v26 (ix2 k q) := by
  show V c main_v26 (((cfg2.win 1).blk t).view.emb (ix2 k q)) = _
  rw [r2_emb1]

theorem r2_blk4_apply (c : Dev nD) (t : Fin cfg2.N) (k q : Fin 64) :
    iblk2 V c 4 t (ix2 k q) = V c main_v30 (ix2 k q) := by
  show V c main_v30 (((cfg2.win 4).blk t).view.emb (ix2 k q)) = _
  rw [r2_emb4]

theorem r2_blk6_apply (c : Dev nD) (t : Fin cfg2.N) (k q : Fin 64) :
    iblk2 V c 6 t (ix2 k q) = V c main_v34 (ix2 k q) := by
  show V c main_v34 (((cfg2.win 6).blk t).view.emb (ix2 k q)) = _
  rw [r2_emb6]

theorem r2_blk3_apply (c : Dev nD) (t : Fin cfg2.N) (z : Fin 1) (q : Fin 64) :
    iblk2 V c 3 t (ix2 z q) = V c main_v37 (ix2 z q) := by
  show V c main_v37 (((cfg2.win 3).blk t).view.emb (ix2 z q)) = _
  rw [r2_emb3]

theorem r2_blk5_apply (c : Dev nD) (t : Fin cfg2.N) (z : Fin 1) (q : Fin 64) :
    iblk2 V c 5 t (ix2 z q) = V c main_v38 (ix2 z q) := by
  show V c main_v38 (((cfg2.win 5).blk t).view.emb (ix2 z q)) = _
  rw [r2_emb5]

theorem r2_blk7_apply (c : Dev nD) (t : Fin cfg2.N) (z : Fin 1) (q : Fin 64) :
    iblk2 V c 7 t (ix2 z q) = V c main_v39 (ix2 z q) := by
  show V c main_v39 (((cfg2.win 7).blk t).view.emb (ix2 z q)) = _
  rw [r2_emb7]

theorem r2_act_apply (c : Dev nD) (t : Fin cfg2.N) (p : Fin 2000) (q : Fin 64) :
    k2_pay1 (F := Ideal) (iblk2 V c 0 t) (iblk2 V c 1 t) (iblk2 V c 2 t) (iblk2 V c 3 t) (ix2 p q)
      = Gnn.relu (Gnn.nodeUpd (V c main_arg0) (V c main_v26) (V c main_v24) (V c main_v37)) (ix2 (r2_row t p) q) := by
  rw [r2_pay1_apply, r2_blk2_apply, r2_blk3_apply]
  simp only [r2_blk0_apply, r2_blk1_apply]
  rfl

theorem r2_flushed8 (c : Dev nD) (t : Fin cfg2.N) :
    (dat2 (F := Ideal) V c).flushed 8 t = ((cfg2.win 8).blk t).view.read (Elt Ideal)
      (Gnn.relu (Gnn.nodeUpd (V c main_arg0) (V c main_v26) (V c main_v24) (V c main_v37))) := by
  show (cfg2.win 8).cut (grid2.coords t) ((dat2 V c).after 8 t) = _
  rw [after2_8]
  unfold out2_8
  rw [View.canon_unit_zero Gnn.off2]
  simp only [View.ld_unit_zero (S := S2000x64) Gnn.off2, View.ld_unit_zero (S := S64x64) Gnn.off2, View.ld_unit_zero (S := S1x64) Gnn.off2]
  funext j
  obtain ⟨p, q, rfl⟩ : ∃ (p : Fin 2000) (q : Fin 64), j = ix2 p q := ⟨j 0, j 1, eq_ix2 j⟩
  show k2_pay1 (F := Ideal) (iblk2 V c 0 t) (iblk2 V c 1 t) (iblk2 V c 2 t) (iblk2 V c 3 t) (ix2 p q)
    = Gnn.relu (Gnn.nodeUpd (V c main_arg0) (V c main_v26) (V c main_v24) (V c main_v37)) (((cfg2.win 8).blk t).view.emb (ix2 p q))
  rw [r2_act_apply, r2_emb8]

theorem r2_cover8 (i : S50000x64.Idx) : ∃ t : Fin cfg2.N, (cfg2.win 8).flush t = true ∧ i ∈ ((cfg2.win 8).blk t).view.set := by
  obtain ⟨t, h⟩ := cover2000 N_2 (idx := win2_8.index) (fun t => (r2_idx_facts t).2.2.2.2.2.2.2.2.1) i
  refine ⟨t, flush2_8 t, ?_⟩
  show i ∈ ((View.whole main_v40_0).slice (win2_8.rect t)).set
  rw [View.set_slice_whole, Rect.mem_set_unit]
  exact h

theorem out2_8 (c : Dev nD) : (dat2 (F := Ideal) V c).arrAt 8 cfg2.N
    = Gnn.relu (Gnn.nodeUpd (V c main_arg0) (V c main_v26) (V c main_v24) (V c main_v37)) :=
  (dat2 V c).arrAt_eq_of_cover 8 _ (fun t _ => r2_flushed8 V c t) r2_cover8

theorem r2_pay3_apply (x0 : Vec Ideal S2000x64 .f32) (x1 : Vec Ideal S64x64 .f32) (x2 : Vec Ideal S2000x64 .f32) (x3 : Vec Ideal S1x64 .f32)
    (x4 : Vec Ideal S64x64 .f32) (x5 : Vec Ideal S1x64 .f32) (p : Fin 2000) (q : Fin 64) :
    k2_pay3 (F := Ideal) x0 x1 x2 x3 x4 x5 (ix2 p q)
      = (∑ k : Fin 64, k2_pay1 (F := Ideal) x0 x1 x2 x3 (ix2 p k) * x4 (ix2 k q)) + x5 (ix2 0 q) := by
  unfold k2_pay3
  simp only [shapeCast_self]
  rw [addf_apply, mm2000_apply, row2000_apply]
  rfl

theorem r2_pay4_apply (x0 : Vec Ideal S2000x64 .f32) (x1 : Vec Ideal S64x64 .f32) (x2 : Vec Ideal S2000x64 .f32) (x3 : Vec Ideal S1x64 .f32)
    (x6 : Vec Ideal S64x64 .f32) (x7 : Vec Ideal S1x64 .f32) (p : Fin 2000) (q : Fin 64) :
    k2_pay4 (F := Ideal) x0 x1 x2 x3 x6 x7 (ix2 p q)
      = (∑ k : Fin 64, k2_pay1 (F := Ideal) x0 x1 x2 x3 (ix2 p k) * x6 (ix2 k q)) + x7 (ix2 0 q) := by
  unfold k2_pay4
  simp only [shapeCast_self]
  rw [addf_apply, mm2000_apply, row2000_apply]
  rfl

theorem r2_flushed9 (c : Dev nD) (t : Fin cfg2.N) :
    (dat2 (F := Ideal) V c).flushed 9 t = ((cfg2.win 9).blk t).view.read (Elt Ideal)
      (Gnn.proj (Gnn.relu (Gnn.nodeUpd (V c main_arg0) (V c main_v26) (V c main_v24) (V c main_v37))) (V c main_v30) (V c main_v38)) := by
  show (cfg2.win 9).cut (grid2.coords t) ((dat2 V c).after 9 t) = _
  rw [after2_9]
  unfold out2_9
  rw [View.canon_unit_zero Gnn.off2]
  simp only [View.ld_unit_zero (S := S2000x64) Gnn.off2, View.ld_unit_zero (S := S64x64) Gnn.off2, View.ld_unit_zero (S := S1x64) Gnn.off2]
  funext j
  obtain ⟨p, q, rfl⟩ : ∃ (p : Fin 2000) (q : Fin 64), j = ix2 p q := ⟨j 0, j 1, eq_ix2 j⟩
  show k2_pay3 (F := Ideal) (iblk2 V c 0 t) (iblk2 V c 1 t) (iblk2 V c 2 t) (iblk2 V c 3 t) (iblk2 V c 4 t) (iblk2 V c 5 t) (ix2 p q)
    = Gnn.proj (Gnn.relu (Gnn.nodeUpd (V c main_arg0) (V c main_v26) (V c main_v24) (V c main_v37))) (V c main_v30) (V c main_v38) (((cfg2.win 9).blk t).view.emb (ix2 p q))
  rw [r2_pay3_apply, r2_emb9, r2_blk5_apply]
  simp only [r2_act_apply, r2_blk4_apply]
  rfl

theorem r2_cover9 (i : S50000x64.Idx) : ∃ t : Fin cfg2.N, (cfg2.win 9).flush t = true ∧ i ∈ ((cfg2.win 9).blk t).view.set := by
  obtain ⟨t, h⟩ := cover2000 N_2 (idx := win2_9.index) (fun t => (r2_idx_facts t).2.2.2.2.2.2.2.2.2.1) i
  refine ⟨t, flush2_9 t, ?_⟩
  show i ∈ ((View.whole main_v40_1).slice (win2_9.rect t)).set
  rw [View.set_slice_whole, Rect.mem_set_unit]
  exact h

theorem out2_9 (c : Dev nD) : (dat2 (F := Ideal) V c).arrAt 9 cfg2.N
    = Gnn.proj (Gnn.relu (Gnn.nodeUpd (V c main_arg0) (V c main_v26) (V c main_v24) (V c main_v37))) (V c main_v30) (V c main_v38) :=
  (dat2 V c).arrAt_eq_of_cover 9 _ (fun t _ => r2_flushed9 V c t) r2_cover9

theorem r2_flushed10 (c : Dev nD) (t : Fin cfg2.N) :
    (dat2 (F := Ideal) V c).flushed 10 t = ((cfg2.win 10).blk t).view.read (Elt Ideal)
      (Gnn.proj (Gnn.relu (Gnn.nodeUpd (V c main_arg0) (V c main_v26) (V c main_v24) (V c main_v37))) (V c main_v34) (V c main_v39)) := by
  show (cfg2.win 10).cut (grid2.coords t) ((dat2 V c).after 10 t) = _
  rw [after2_10]
  unfold out2_10
  rw [View.canon_unit_zero Gnn.off2]
  simp only [View.ld_unit_zero (S := S2000x64) Gnn.off2, View.ld_unit_zero (S := S64x64) Gnn.off2, View.ld_unit_zero (S := S1x64) Gnn.off2]
  funext j
  obtain ⟨p, q, rfl⟩ : ∃ (p : Fin 2000) (q : Fin 64), j = ix2 p q := ⟨j 0, j 1, eq_ix2 j⟩
  show k2_pay4 (F := Ideal) (iblk2 V c 0 t) (iblk2 V c 1 t) (iblk2 V c 2 t) (iblk2 V c 3 t) (iblk2 V c 6 t) (iblk2 V c 7 t) (ix2 p q)
    = Gnn.proj (Gnn.relu (Gnn.nodeUpd (V c main_arg0) (V c main_v26) (V c main_v24) (V c main_v37))) (V c main_v34) (V c main_v39) (((cfg2.win 10).blk t).view.emb (ix2 p q))
  rw [r2_pay4_apply, r2_emb10, r2_blk7_apply]
  simp only [r2_act_apply, r2_blk6_apply]
  rfl

theorem r2_cover10 (i : S50000x64.Idx) : ∃ t : Fin cfg2.N, (cfg2.win 10).flush t = true ∧ i ∈ ((cfg2.win 10).blk t).view.set := by
  obtain ⟨t, h⟩ := cover2000 N_2 (idx := win2_10.index) (fun t => (r2_idx_facts t).2.2.2.2.2.2.2.2.2.2) i
  refine ⟨t, flush2_10 t, ?_⟩
  show i ∈ ((View.whole main_v40_2).slice (win2_10.rect t)).set
  rw [View.set_slice_whole, Rect.mem_set_unit]
  exact h

theorem out2_10 (c : Dev nD) : (dat2 (F := Ideal) V c).arrAt 10 cfg2.N
    = Gnn.proj (Gnn.relu (Gnn.nodeUpd (V c main_arg0) (V c main_v26) (V c main_v24) (V c main_v37))) (V c main_v34) (V c main_v39) :=
  (dat2 V c).arrAt_eq_of_cover 10 _ (fun t _ => r2_flushed10 V c t) r2_cover10

end Cert.KernelIdeal.RegVal

end
-- ==== Proof.RegVal3.lean ====
import proofs.«404994_j27599459844666_2_alg».proof.Proof.Gen.KernelIdeal.Frame
import proofs.«404994_j27599459844666_2_alg».proof.Proof.MatRow6400
import Idealize.ShloMosaic.Lib.Pipeline.Value
import Idealize.ShloMosaic.PureOps.Ideal.Laws
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem r3_pay (x0 : Vec Ideal S6400x64 .f32) (x1 : Vec Ideal S64x64 .f32) (x2 : Vec Ideal S1x64 .f32)
    (x3 : Vec Ideal S6400x64 .f32) (x4 : Vec Ideal S64x64 .f32) (x5 : Vec Ideal S1x64 .f32) :
    k3_pay1 x0 x1 x2 x3 x4 x5 = Gnn.edgeMlp (n := 6400) x0 x1 x2 x3 x4 x5 := by
  funext j
  obtain ⟨p, q, rfl⟩ : ∃ (p : Fin 6400) (q : Fin 64), j = ix2 p q := ⟨j 0, j 1, eq_ix2 j⟩
  unfold k3_pay1
  simp only [shapeCast_self]
  rw [addf_apply, mm6400_apply, row6400_apply]
  unfold Gnn.edgeMlp Gnn.proj
  rw [Gnn.addRow_apply, Gnn.mm_apply]
  refine congrArg (· + x5 (ix2 0 q)) (Finset.sum_congr rfl fun k _ => congrArg (· * x4 (ix2 k q)) ?_)
  rw [truncf_apply, maximumf_apply, addf_apply, addf_apply, mm6400_apply, row6400_apply]
  rfl

theorem r3_row (EA : Gnn.Arr2 800000 64) (We : Gnn.Arr2 64 64) (be : Gnn.Arr2 1 64) (ST : Gnn.Arr2 800000 64)
    (W1 : Gnn.Arr2 64 64) (b1 : Gnn.Arr2 1 64)
    (x0 : Vec Ideal S6400x64 .f32) (x1 : Vec Ideal S64x64 .f32) (x2 : Vec Ideal S1x64 .f32)
    (x3 : Vec Ideal S6400x64 .f32) (x4 : Vec Ideal S64x64 .f32) (x5 : Vec Ideal S1x64 .f32)
    (p : Fin 6400) (q : Fin 64) (r : Fin 800000)
    (h0 : ∀ k : Fin 64, x0 (ix2 p k) = EA (ix2 r k)) (h1 : x1 = We) (h2 : x2 = be)
    (h3 : ∀ k : Fin 64, x3 (ix2 p k) = ST (ix2 r k)) (h4 : x4 = W1) (h5 : x5 = b1) :
    Gnn.edgeMlp (n := 6400) x0 x1 x2 x3 x4 x5 (ix2 p q) = Gnn.edgeMlp EA We be ST W1 b1 (ix2 r q) := by
  subst h1 h2 h4 h5
  unfold Gnn.edgeMlp Gnn.proj
  rw [Gnn.addRow_apply, Gnn.addRow_apply, Gnn.mm_apply, Gnn.mm_apply]
  refine congrArg (· + x5 (ix2 0 q)) (Finset.sum_congr rfl fun k _ => congrArg (· * x4 (ix2 k q)) ?_)
  rw [Gnn.relu_apply, Gnn.relu_apply, Gnn.add_apply, Gnn.add_apply, Gnn.addRow_apply, Gnn.addRow_apply, Gnn.mm_apply,
    Gnn.mm_apply, h3 k]
  exact congrArg (fun s => max (s + x2 (ix2 0 k) + ST (ix2 r k)) Gnn.zero32) (Finset.sum_congr rfl fun l _ => by rw [h0 l])

theorem r3_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem r3_N (t : Fin cfg3.N) : t.val < 125 := t.isLt

theorem r3_flushed (c : Dev nD) (t : Fin cfg3.N) :
    (dat3 (F := Ideal) V c).flushed 6 t = ((cfg3.win 6).blk t).view.read (Elt Ideal)
      (Gnn.edgeMlp (V c main_arg2) (V c main_v45) (V c main_v52) (V c main_v43) (V c main_v49) (V c main_v53)) := by
  show (cfg3.win 6).cut (grid3.coords t) ((dat3 V c).after 6 t) = _
  rw [after3_6]
  unfold out3_6
  rw [View.canon_unit_zero Gnn.off2]
  simp only [View.ld_unit_zero (S := S6400x64) Gnn.off2, View.ld_unit_zero (S := S64x64) Gnn.off2, View.ld_unit_zero (S := S1x64) Gnn.off2]
  rw [r3_pay]
  obtain ⟨e00, e01, e10, e11, e20, e21, e30, e31, e40, e41, e50, e51, e60, e61⟩ := r3_idx t
  have ht := r3_N t
  funext j
  obtain ⟨p, q, rfl⟩ : ∃ (p : Fin 6400) (q : Fin 64), j = ix2 p q := ⟨j 0, j 1, eq_ix2 j⟩
  have hp : p.val < 6400 := p.isLt
  have hq : q.val < 64 := q.isLt
  have hr : t.val * 6400 + p.val < 800000 := by omega
  have he : ((cfg3.win 6).blk t).view.emb (ix2 p q) = ix2 (⟨t.val * 6400 + p.val, hr⟩ : Fin 800000) q := by
    funext a; apply Fin.ext
    match a with
    | ⟨0, _⟩ => show win3_6.index t (0 : Fin 2) * 6400 + 1 * p.val = t.val * 6400 + p.val; omega
    | ⟨1, _⟩ => show win3_6.index t (1 : Fin 2) * 64 + 1 * q.val = q.val; omega
  show Gnn.edgeMlp (n := 6400) (iblk3 V c 0 t) (iblk3 V c 1 t) (iblk3 V c 2 t) (iblk3 V c 3 t) (iblk3 V c 4 t) (iblk3 V c 5 t) (ix2 p q)
    = Gnn.edgeMlp (V c main_arg2) (V c main_v45) (V c main_v52) (V c main_v43) (V c main_v49) (V c main_v53)
        (((cfg3.win 6).blk t).view.emb (ix2 p q))
  rw [he]
  refine r3_row _ _ _ _ _ _ _ _ _ _ _ _ p q _ (fun k => ?_) ?_ ?_ (fun k => ?_) ?_ ?_
  · show V c main_arg2 (((cfg3.win 0).blk t).view.emb (ix2 p k)) = V c main_arg2 _
    refine congrArg _ (funext fun a => Fin.ext ?_)
    have hk : k.val < 64 := k.isLt
    match a with
    | ⟨0, _⟩ => show win3_0.index t (0 : Fin 2) * 6400 + 1 * p.val = t.val * 6400 + p.val; omega
    | ⟨1, _⟩ => show win3_0.index t (1 : Fin 2) * 64 + 1 * k.val = k.val; omega
  · funext y
    show V c main_v45 (((cfg3.win 1).blk t).view.emb y) = V c main_v45 y
    refine congrArg _ (funext fun a => Fin.ext ?_)
    match a with
    | ⟨0, _⟩ => show win3_1.index t (0 : Fin 2) * 64 + 1 * (y 0).val = (y 0).val; omega
    | ⟨1, _⟩ => show win3_1.index t (1 : Fin 2) * 64 + 1 * (y 1).val = (y 1).val; omega
  · funext y
    show V c main_v52 (((cfg3.win 2).blk t).view.emb y) = V c main_v52 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 64 + 1 * (y 1).val = (y 1).val; omega
  · show V c main_v43 (((cfg3.win 3).blk t).view.emb (ix2 p k)) = V c main_v43 _
    refine congrArg _ (funext fun a => Fin.ext ?_)
    have hk : k.val < 64 := k.isLt
    match a with
    | ⟨0, _⟩ => show win3_3.index t (0 : Fin 2) * 6400 + 1 * p.val = t.val * 6400 + p.val; omega
    | ⟨1, _⟩ => show win3_3.index t (1 : Fin 2) * 64 + 1 * k.val = k.val; omega
  · funext y
    show V c main_v49 (((cfg3.win 4).blk t).view.emb y) = V c main_v49 y
    refine congrArg _ (funext fun a => Fin.ext ?_)
    match a with
    | ⟨0, _⟩ => show win3_4.index t (0 : Fin 2) * 64 + 1 * (y 0).val = (y 0).val; omega
    | ⟨1, _⟩ => show win3_4.index t (1 : Fin 2) * 64 + 1 * (y 1).val = (y 1).val; omega
  · funext y
    show V c main_v53 (((cfg3.win 5).blk t).view.emb y) = V c main_v53 y
    refine congrArg _ (funext fun a => Fin.ext ?_)
    match a with
    | ⟨0, _⟩ => show win3_5.index t (0 : Fin 2) * 1 + 1 * (y 0).val = (y 0).val; omega
    | ⟨1, _⟩ => show win3_5.index t (1 : Fin 2) * 64 + 1 * (y 1).val = (y 1).val; omega

theorem r3_cover (i : S800000x64.Idx) :
    ∃ t : Fin cfg3.N, (cfg3.win 6).flush t = true ∧ i ∈ ((cfg3.win 6).blk t).view.set := by
  obtain ⟨t, h⟩ := cover6400 N_3 (idx := win3_6.index) (fun t => (r3_idx t).2.2.2.2.2.2.2.2.2.2.2.2) i
  refine ⟨t, flush3_6 t, ?_⟩
  show i ∈ ((View.whole main_v54).slice (win3_6.rect t)).set
  rw [View.set_slice_whole, Rect.mem_set_unit]
  exact h

theorem out3 (c : Dev nD) : (dat3 (F := Ideal) V c).arrAt 6 cfg3.N
    = Gnn.edgeMlp (V c main_arg2) (V c main_v45) (V c main_v52) (V c main_v43) (V c main_v49) (V c main_v53) :=
  (dat3 V c).arrAt_eq_of_cover 6 _ (fun t _ => r3_flushed V c t) r3_cover

end Cert.KernelIdeal.RegVal

end
-- ==== Proof.KVal0.lean ====
import proofs.«404994_j27599459844666_2_alg».proof.Proof.KBase
import proofs.«404994_j27599459844666_2_alg».proof.Proof.RegVal0
import proofs.«404994_j27599459844666_2_alg».proof.Proof.RegVal1
import proofs.«404994_j27599459844666_2_alg».proof.Proof.RegVal2
import proofs.«404994_j27599459844666_2_alg».proof.Proof.RegVal3
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KCarry Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

local macro "l0_untyped" : tactic =>
  `(tactic| repeat (first
      | rw [ofBuf_self main_v15 (by decide) rfl]
      | rw [toBuf_self main_v15 (by decide) rfl]
      | rw [ofBuf_self main_call1_v14 (by decide) rfl]
      | rw [toBuf_self main_call1_v14 (by decide) rfl]
      | rw [ofBuf_self main_call1_v7 (by decide) rfl]
      | rw [toBuf_self main_call1_v7 (by decide) rfl]
      | rw [ofBuf_self main_call1_v5 (by decide) rfl]
      | rw [toBuf_self main_call1_v5 (by decide) rfl]
      | rw [ofBuf_self main_v1 (by decide) rfl]
      | rw [toBuf_self main_v1 (by decide) rfl]
      | rw [ofBuf_self main_call1_v1 (by decide) rfl]
      | rw [toBuf_self main_call1_v1 (by decide) rfl]
      | rw [ofBuf_self main_call1_c (by decide) rfl]
      | rw [toBuf_self main_call1_c (by decide) rfl]
      | rw [ofBuf_self main_call1_c_1 (by decide) rfl]
      | rw [toBuf_self main_call1_c_1 (by decide) rfl]
      | rw [ofBuf_self main_call1_v8 (by decide) rfl]
      | rw [toBuf_self main_call1_v8 (by decide) rfl]
      | rw [ofBuf_self main_call1_c_3 (by decide) rfl]
      | rw [toBuf_self main_call1_c_3 (by decide) rfl]
      | rw [ofBuf_self main_v14 (by decide) rfl]
      | rw [toBuf_self main_v14 (by decide) rfl]
      | rw [ofBuf_self main_call1_cst (by decide) rfl]
      | rw [toBuf_self main_call1_cst (by decide) rfl]))

section Stretches

variable (Vl : Valuation τ sig (Elt Ideal))

theorem l0_s_wn : StableHlo.after hostOps0_2 Vl (Proc.devRef .tc main_v13) = Gnn.wSlice (Vl (Proc.devRef .tc main_arg4)) (0 : Fin 3) := by
  dsimp only [hostOps0_2]
  after_results
  exact wSlice_eq (0 : Fin 3) _ _ _

set_option maxHeartbeats 4000000 in
theorem l0_s_take1 : StableHlo.after hostOps1 Vl (Proc.devRef .tc main_v15)
    = takeK (F := Ideal) (Vl (Proc.devRef .tc main_v14)) (Vl (Proc.devRef .tc main_v1)) := by
  dsimp only [hostOps1]
  after_results_simp
  unfold takeK inRangeK colK wrapK
  l0_untyped
  all_goals rfl

theorem l0_s_we : StableHlo.after hostOps1_1 Vl (Proc.devRef .tc main_v17) = Gnn.wSlice (Vl (Proc.devRef .tc main_arg5)) (0 : Fin 3) := by
  dsimp only [hostOps1_1]
  after_results
  exact wSlice_eq (0 : Fin 3) _ _ _

theorem l0_s_agg (a1 : IVec S2x800000 32) (h3 : Vl (Proc.devRef .tc main_v3) = dstK a1) (h11 : Vl (Proc.devRef .tc main_v11) = invK (F := Ideal) a1) :
    StableHlo.after hostOps2 Vl (Proc.devRef .tc main_v24)
      = segK (F := Ideal) a1 (Gnn.add (Vl (Proc.devRef .tc main_v15)) (Vl (Proc.devRef .tc main_v18))) := by
  dsimp only [hostOps2]
  after_results
  rw [h3, h11]
  rfl

theorem l0_s_wr : StableHlo.after hostOps2 Vl (Proc.devRef .tc main_v26) = Gnn.wSlice (Vl (Proc.devRef .tc main_arg3)) (0 : Fin 3) := by
  dsimp only [hostOps2]
  after_results
  exact wSlice_eq (0 : Fin 3) _ _ _
theorem l0_s_b : StableHlo.after hostOps2 Vl (Proc.devRef .tc main_v37) = Gnn.bRow (Vl (Proc.devRef .tc main_arg6)) (0 : Fin 3) := by
  dsimp only [hostOps2]
  after_results
  exact bRow_eq (0 : Fin 3) _ _ _ _
theorem l0_s_ews : StableHlo.after hostOps2 Vl (Proc.devRef .tc main_v30) = Gnn.wSlice (Vl (Proc.devRef .tc main_arg9)) (0 : Fin 3) := by
  dsimp only [hostOps2]
  after_results
  exact wSlice_eq (0 : Fin 3) _ _ _
theorem l0_s_ebs : StableHlo.after hostOps2 Vl (Proc.devRef .tc main_v38) = Gnn.bRow (Vl (Proc.devRef .tc main_arg10)) (0 : Fin 3) := by
  dsimp only [hostOps2]
  after_results
  exact bRow_eq (0 : Fin 3) _ _ _ _
theorem l0_s_ewt : StableHlo.after hostOps2 Vl (Proc.devRef .tc main_v34) = Gnn.wSlice (Vl (Proc.devRef .tc main_arg11)) (0 : Fin 3) := by
  dsimp only [hostOps2]
  after_results
  exact wSlice_eq (0 : Fin 3) _ _ _
theorem l0_s_ebt : StableHlo.after hostOps2 Vl (Proc.devRef .tc main_v39) = Gnn.bRow (Vl (Proc.devRef .tc main_arg12)) (0 : Fin 3) := by
  dsimp only [hostOps2]
  after_results
  exact bRow_eq (0 : Fin 3) _ _ _ _

set_option maxHeartbeats 4000000 in
theorem l0_s_take2 : StableHlo.after hostOps3 Vl (Proc.devRef .tc main_v41)
    = takeK (F := Ideal) (Vl (Proc.devRef .tc main_v40_1)) (Vl (Proc.devRef .tc main_v1)) := by
  dsimp only [hostOps3]
  after_results_simp
  unfold takeK inRangeK colK wrapK
  l0_untyped
  all_goals rfl

set_option maxHeartbeats 4000000 in
theorem l0_s_take3 : StableHlo.after hostOps3_1 Vl (Proc.devRef .tc main_v42)
    = takeK (F := Ideal) (Vl (Proc.devRef .tc main_v40_2)) (Vl (Proc.devRef .tc main_v3)) := by
  dsimp only [hostOps3_1]
  after_results_simp
  unfold takeK inRangeK colK wrapK
  l0_untyped
  all_goals rfl

theorem l0_s_st : StableHlo.after hostOps3_2 Vl (Proc.devRef .tc main_v43)
    = Gnn.add (Vl (Proc.devRef .tc main_v41)) (Vl (Proc.devRef .tc main_v42)) := by
  dsimp only [hostOps3_2]
  after_results
  rfl

theorem l0_s_ewe : StableHlo.after hostOps3_2 Vl (Proc.devRef .tc main_v45) = Gnn.wSlice (Vl (Proc.devRef .tc main_arg7)) (0 : Fin 3) := by
  dsimp only [hostOps3_2]
  after_results
  exact wSlice_eq (0 : Fin 3) _ _ _
theorem l0_s_ebe : StableHlo.after hostOps3_2 Vl (Proc.devRef .tc main_v52) = Gnn.bRow (Vl (Proc.devRef .tc main_arg8)) (0 : Fin 3) := by
  dsimp only [hostOps3_2]
  after_results
  exact bRow_eq (0 : Fin 3) _ _ _ _
theorem l0_s_ew1 : StableHlo.after hostOps3_2 Vl (Proc.devRef .tc main_v49) = Gnn.wSlice (Vl (Proc.devRef .tc main_arg13)) (0 : Fin 3) := by
  dsimp only [hostOps3_2]
  after_results
  exact wSlice_eq (0 : Fin 3) _ _ _
theorem l0_s_eb1 : StableHlo.after hostOps3_2 Vl (Proc.devRef .tc main_v53) = Gnn.bRow (Vl (Proc.devRef .tc main_arg14)) (0 : Fin 3) := by
  dsimp only [hostOps3_2]
  after_results
  exact bRow_eq (0 : Fin 3) _ _ _ _

end Stretches

variable (c : Dev nD) (X : Gnn.NArr) (E : Gnn.EArr)

abbrev x1v : Gnn.NArr := Gnn.relu (Gnn.xPreK (gSK m c) (sgK m c) (weightsK m c) 0 X E)

theorem l0_wn : W3 m ρ c (Proc.devRef .tc main_v13) = Gnn.wSlice (m ((c : Thread nD τ).loc main_arg4)) (0 : Fin 3) := by
  show StableHlo.after hostOps0_2 (W2 m ρ c) (Proc.devRef .tc main_v13) = _
  rw [l0_s_wn, keep_main_arg4_0_2, W0_at]

theorem l0_xwn (hX : W0 m ρ c (Proc.devRef .tc main_arg0) = X) :
    W4 m ρ c (Proc.devRef .tc main_v14) = Gnn.mm X (Gnn.wSlice (m ((c : Thread nD τ).loc main_arg4)) (0 : Fin 3)) := by
  refine ((W4_arr m ρ c 2).trans (RegVal.out0 (V3 m ρ) c)).trans ?_
  show Gnn.mm (W3 m ρ c (Proc.devRef .tc main_arg0)) (W3 m ρ c (Proc.devRef .tc main_v13)) = _
  rw [keep_main_arg0_0_3, hX, l0_wn]

theorem l0_gxwn (hX : W0 m ρ c (Proc.devRef .tc main_arg0) = X) :
    W5 m ρ c (Proc.devRef .tc main_v15) = gSK m c (Gnn.mm X (Gnn.wSlice (m ((c : Thread nD τ).loc main_arg4)) (0 : Fin 3))) := by
  show StableHlo.after hostOps1 (W4 m ρ c) (Proc.devRef .tc main_v15) = _
  rw [l0_s_take1, l0_xwn m ρ c X hX, keep_main_v1_1_4, src_at1]

theorem l0_we : W6 m ρ c (Proc.devRef .tc main_v17) = Gnn.wSlice (m ((c : Thread nD τ).loc main_arg5)) (0 : Fin 3) := by
  show StableHlo.after hostOps1_1 (W5 m ρ c) (Proc.devRef .tc main_v17) = _
  rw [l0_s_we, keep_main_arg5_0_5, W0_at]

theorem l0_ewe (hE : W0 m ρ c (Proc.devRef .tc main_arg2) = E) :
    W7 m ρ c (Proc.devRef .tc main_v18) = Gnn.mm E (Gnn.wSlice (m ((c : Thread nD τ).loc main_arg5)) (0 : Fin 3)) := by
  refine ((W7_arr m ρ c 2).trans (RegVal.out1 (V6 m ρ) c)).trans ?_
  show Gnn.mm (W6 m ρ c (Proc.devRef .tc main_arg2)) (W6 m ρ c (Proc.devRef .tc main_v17)) = _
  rw [keep_main_arg2_0_6, hE, l0_we]

theorem l0_agg (hX : W0 m ρ c (Proc.devRef .tc main_arg0) = X) (hE : W0 m ρ c (Proc.devRef .tc main_arg2) = E) :
    W8 m ρ c (Proc.devRef .tc main_v24) = sgK m c (Gnn.msgK (gSK m c) (weightsK m c) 0 X E) := by
  show StableHlo.after hostOps2 (W7 m ρ c) (Proc.devRef .tc main_v24) = _
  rw [l0_s_agg (W7 m ρ c) (m ((c : Thread nD τ).loc main_arg1)) ((keep_main_v3_1_7 m ρ c).trans (dst_at1 m ρ c))
      ((keep_main_v11_3_7 m ρ c).trans (inv_at3 m ρ c)),
    keep_main_v15_5_7, l0_gxwn m ρ c X hX, l0_ewe m ρ c E hE]
  rfl

theorem l0_wr : W8 m ρ c (Proc.devRef .tc main_v26) = Gnn.wSlice (m ((c : Thread nD τ).loc main_arg3)) (0 : Fin 3) := by
  show StableHlo.after hostOps2 (W7 m ρ c) (Proc.devRef .tc main_v26) = _
  rw [l0_s_wr, keep_main_arg3_0_7, W0_at]
theorem l0_b : W8 m ρ c (Proc.devRef .tc main_v37) = Gnn.bRow (m ((c : Thread nD τ).loc main_arg6)) (0 : Fin 3) := by
  show StableHlo.after hostOps2 (W7 m ρ c) (Proc.devRef .tc main_v37) = _
  rw [l0_s_b, keep_main_arg6_0_7, W0_at]
theorem l0_ews : W8 m ρ c (Proc.devRef .tc main_v30) = Gnn.wSlice (m ((c : Thread nD τ).loc main_arg9)) (0 : Fin 3) := by
  show StableHlo.after hostOps2 (W7 m ρ c) (Proc.devRef .tc main_v30) = _
  rw [l0_s_ews, keep_main_arg9_0_7, W0_at]
theorem l0_ebs : W8 m ρ c (Proc.devRef .tc main_v38) = Gnn.bRow (m ((c : Thread nD τ).loc main_arg10)) (0 : Fin 3) := by
  show StableHlo.after hostOps2 (W7 m ρ c) (Proc.devRef .tc main_v38) = _
  rw [l0_s_ebs, keep_main_arg10_0_7, W0_at]
theorem l0_ewt : W8 m ρ c (Proc.devRef .tc main_v34) = Gnn.wSlice (m ((c : Thread nD τ).loc main_arg11)) (0 : Fin 3) := by
  show StableHlo.after hostOps2 (W7 m ρ c) (Proc.devRef .tc main_v34) = _
  rw [l0_s_ewt, keep_main_arg11_0_7, W0_at]
theorem l0_ebt : W8 m ρ c (Proc.devRef .tc main_v39) = Gnn.bRow (m ((c : Thread nD τ).loc main_arg12)) (0 : Fin 3) := by
  show StableHlo.after hostOps2 (W7 m ρ c) (Proc.devRef .tc main_v39) = _
  rw [l0_s_ebt, keep_main_arg12_0_7, W0_at]

theorem l0_x (hX : W0 m ρ c (Proc.devRef .tc main_arg0) = X) (hE : W0 m ρ c (Proc.devRef .tc main_arg2) = E) :
    W9 m ρ c (Proc.devRef .tc main_v40_0) = x1v m c X E := by
  refine ((W9_arr m ρ c 8).trans (RegVal.out2_8 (V8 m ρ) c)).trans ?_
  show Gnn.relu (Gnn.nodeUpd (W8 m ρ c (Proc.devRef .tc main_arg0)) (W8 m ρ c (Proc.devRef .tc main_v26)) (W8 m ρ c (Proc.devRef .tc main_v24)) (W8 m ρ c (Proc.devRef .tc main_v37))) = _
  rw [keep_main_arg0_0_8, hX, l0_wr, l0_agg m ρ c X E hX hE, l0_b]
  rfl

theorem l0_xs (hX : W0 m ρ c (Proc.devRef .tc main_arg0) = X) (hE : W0 m ρ c (Proc.devRef .tc main_arg2) = E) :
    W9 m ρ c (Proc.devRef .tc main_v40_1) = Gnn.proj (x1v m c X E) (Gnn.wSlice (m ((c : Thread nD τ).loc main_arg9)) (0 : Fin 3)) (Gnn.bRow (m ((c : Thread nD τ).loc main_arg10)) (0 : Fin 3)) := by
  refine ((W9_arr m ρ c 9).trans (RegVal.out2_9 (V8 m ρ) c)).trans ?_
  show Gnn.proj (Gnn.relu (Gnn.nodeUpd (W8 m ρ c (Proc.devRef .tc main_arg0)) (W8 m ρ c (Proc.devRef .tc main_v26)) (W8 m ρ c (Proc.devRef .tc main_v24)) (W8 m ρ c (Proc.devRef .tc main_v37))))
    (W8 m ρ c (Proc.devRef .tc main_v30)) (W8 m ρ c (Proc.devRef .tc main_v38)) = _
  rw [keep_main_arg0_0_8, hX, l0_wr, l0_agg m ρ c X E hX hE, l0_b, l0_ews, l0_ebs]
  rfl
theorem l0_xt (hX : W0 m ρ c (Proc.devRef .tc main_arg0) = X) (hE : W0 m ρ c (Proc.devRef .tc main_arg2) = E) :
    W9 m ρ c (Proc.devRef .tc main_v40_2) = Gnn.proj (x1v m c X E) (Gnn.wSlice (m ((c : Thread nD τ).loc main_arg11)) (0 : Fin 3)) (Gnn.bRow (m ((c : Thread nD τ).loc main_arg12)) (0 : Fin 3)) := by
  refine ((W9_arr m ρ c 10).trans (RegVal.out2_10 (V8 m ρ) c)).trans ?_
  show Gnn.proj (Gnn.relu (Gnn.nodeUpd (W8 m ρ c (Proc.devRef .tc main_arg0)) (W8 m ρ c (Proc.devRef .tc main_v26)) (W8 m ρ c (Proc.devRef .tc main_v24)) (W8 m ρ c (Proc.devRef .tc main_v37))))
    (W8 m ρ c (Proc.devRef .tc main_v34)) (W8 m ρ c (Proc.devRef .tc main_v39)) = _
  rw [keep_main_arg0_0_8, hX, l0_wr, l0_agg m ρ c X E hX hE, l0_b, l0_ewt, l0_ebt]
  rfl

theorem l0_gs (hX : W0 m ρ c (Proc.devRef .tc main_arg0) = X) (hE : W0 m ρ c (Proc.devRef .tc main_arg2) = E) :
    W10 m ρ c (Proc.devRef .tc main_v41) = gSK m c (Gnn.proj (x1v m c X E) (Gnn.wSlice (m ((c : Thread nD τ).loc main_arg9)) (0 : Fin 3)) (Gnn.bRow (m ((c : Thread nD τ).loc main_arg10)) (0 : Fin 3))) := by
  show StableHlo.after hostOps3 (W9 m ρ c) (Proc.devRef .tc main_v41) = _
  rw [l0_s_take2, l0_xs m ρ c X E hX hE, keep_main_v1_1_9, src_at1]
theorem l0_gt (hX : W0 m ρ c (Proc.devRef .tc main_arg0) = X) (hE : W0 m ρ c (Proc.devRef .tc main_arg2) = E) :
    W11 m ρ c (Proc.devRef .tc main_v42) = gDK m c (Gnn.proj (x1v m c X E) (Gnn.wSlice (m ((c : Thread nD τ).loc main_arg11)) (0 : Fin 3)) (Gnn.bRow (m ((c : Thread nD τ).loc main_arg12)) (0 : Fin 3))) := by
  show StableHlo.after hostOps3_1 (W10 m ρ c) (Proc.devRef .tc main_v42) = _
  rw [l0_s_take3, keep_main_v40_2_9_10, l0_xt m ρ c X E hX hE, keep_main_v3_1_10, dst_at1]
theorem l0_st (hX : W0 m ρ c (Proc.devRef .tc main_arg0) = X) (hE : W0 m ρ c (Proc.devRef .tc main_arg2) = E) :
    W12 m ρ c (Proc.devRef .tc main_v43)
      = Gnn.add (gSK m c (Gnn.proj (x1v m c X E) (Gnn.wSlice (m ((c : Thread nD τ).loc main_arg9)) (0 : Fin 3)) (Gnn.bRow (m ((c : Thread nD τ).loc main_arg10)) (0 : Fin 3))))
          (gDK m c (Gnn.proj (x1v m c X E) (Gnn.wSlice (m ((c : Thread nD τ).loc main_arg11)) (0 : Fin 3)) (Gnn.bRow (m ((c : Thread nD τ).loc main_arg12)) (0 : Fin 3)))) := by
  show StableHlo.after hostOps3_2 (W11 m ρ c) (Proc.devRef .tc main_v43) = _
  rw [l0_s_st, keep_main_v41_10_11, l0_gs m ρ c X E hX hE, l0_gt m ρ c X E hX hE]

theorem l0_eWe : W12 m ρ c (Proc.devRef .tc main_v45) = Gnn.wSlice (m ((c : Thread nD τ).loc main_arg7)) (0 : Fin 3) := by
  show StableHlo.after hostOps3_2 (W11 m ρ c) (Proc.devRef .tc main_v45) = _
  rw [l0_s_ewe, keep_main_arg7_0_11, W0_at]
theorem l0_eBe : W12 m ρ c (Proc.devRef .tc main_v52) = Gnn.bRow (m ((c : Thread nD τ).loc main_arg8)) (0 : Fin 3) := by
  show StableHlo.after hostOps3_2 (W11 m ρ c) (Proc.devRef .tc main_v52) = _
  rw [l0_s_ebe, keep_main_arg8_0_11, W0_at]
theorem l0_eW1 : W12 m ρ c (Proc.devRef .tc main_v49) = Gnn.wSlice (m ((c : Thread nD τ).loc main_arg13)) (0 : Fin 3) := by
  show StableHlo.after hostOps3_2 (W11 m ρ c) (Proc.devRef .tc main_v49) = _
  rw [l0_s_ew1, keep_main_arg13_0_11, W0_at]
theorem l0_eB1 : W12 m ρ c (Proc.devRef .tc main_v53) = Gnn.bRow (m ((c : Thread nD τ).loc main_arg14)) (0 : Fin 3) := by
  show StableHlo.after hostOps3_2 (W11 m ρ c) (Proc.devRef .tc main_v53) = _
  rw [l0_s_eb1, keep_main_arg14_0_11, W0_at]

theorem l0_ea (hX : W0 m ρ c (Proc.devRef .tc main_arg0) = X) (hE : W0 m ρ c (Proc.devRef .tc main_arg2) = E) :
    W13 m ρ c (Proc.devRef .tc main_v54) = Gnn.eaNextK (gSK m c) (gDK m c) (weightsK m c) 0 (x1v m c X E) E := by
  refine ((W13_arr m ρ c 6).trans (RegVal.out3 (V12 m ρ) c)).trans ?_
  show Gnn.edgeMlp (W12 m ρ c (Proc.devRef .tc main_arg2)) (W12 m ρ c (Proc.devRef .tc main_v45)) (W12 m ρ c (Proc.devRef .tc main_v52)) (W12 m ρ c (Proc.devRef .tc main_v43))
    (W12 m ρ c (Proc.devRef .tc main_v49)) (W12 m ρ c (Proc.devRef .tc main_v53)) = _
  rw [keep_main_arg2_0_12, hE, l0_eWe, l0_eBe, l0_st m ρ c X E hX hE, l0_eW1, l0_eB1]
  rfl

end Cert.KernelIdeal.KV

end
-- ==== Proof.RegVal10.lean ====
import proofs.«404994_j27599459844666_2_alg».proof.Proof.Gen.KernelIdeal.Frame
import proofs.«404994_j27599459844666_2_alg».proof.Proof.MatRow2000
import Idealize.ShloMosaic.Lib.Pipeline.Value
import Idealize.ShloMosaic.PureOps.Ideal.Laws
import Idealize.ShloMosaic.Lib.ValueIdx

set_option maxRecDepth 16384

noncomputable section

namespace Cert.KernelIdeal.RegVal

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem r10_pay (x0 : Vec Ideal S2000x64 .f32) (x1 : Vec Ideal S64x64 .f32) (x2 : Vec Ideal S2000x64 .f32) (x3 : Vec Ideal S1x64 .f32) :
    k10_pay1 x0 x1 x2 x3 = Gnn.nodeUpd (n := 2000) x0 x1 x2 x3 := by
  funext j
  obtain ⟨p, q, rfl⟩ : ∃ (p : Fin 2000) (q : Fin 64), j = ix2 p q := ⟨j 0, j 1, eq_ix2 j⟩
  unfold k10_pay1
  simp only [shapeCast_self]
  rw [addf_apply, addf_apply, mm2000_apply, row2000_apply]
  rfl

theorem r10_row (X : Gnn.Arr2 50000 64) (W : Gnn.Arr2 64 64) (A : Gnn.Arr2 50000 64) (b : Gnn.Arr2 1 64)
    (x0 : Vec Ideal S2000x64 .f32) (x1 : Vec Ideal S64x64 .f32) (x2 : Vec Ideal S2000x64 .f32) (x3 : Vec Ideal S1x64 .f32)
    (p : Fin 2000) (q : Fin 64) (r : Fin 50000)
    (h0 : ∀ k : Fin 64, x0 (ix2 p k) = X (ix2 r k)) (h1 : ∀ k : Fin 64, x1 (ix2 k q) = W (ix2 k q))
    (h2 : x2 (ix2 p q) = A (ix2 r q)) (h3 : x3 (ix2 0 q) = b (ix2 0 q)) :
    Gnn.nodeUpd (n := 2000) x0 x1 x2 x3 (ix2 p q) = Gnn.nodeUpd X W A b (ix2 r q) := by
  unfold Gnn.nodeUpd
  rw [Gnn.addRow_apply, Gnn.addRow_apply, Gnn.add_apply, Gnn.add_apply, Gnn.mm_apply, Gnn.mm_apply, h2, h3]
  exact congrArg (· + A (ix2 r q) + b (ix2 0 q)) (Finset.sum_congr rfl fun k _ => by rw [h0 k, h1 k])

theorem r10_idx : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

theorem r10_N (t : Fin cfg10.N) : t.val < 25 := t.isLt

theorem r10_flushed (c : Dev nD) (t : Fin cfg10.N) :
    (dat10 (F := Ideal) V c).flushed 4 t = ((cfg10.win 4).blk t).view.read (Elt Ideal)
      (Gnn.nodeUpd (V c main_v83_0) (V c main_v112) (V c main_v110) (V c main_v115)) := by
  show (cfg10.win 4).cut (grid10.coords t) ((dat10 V c).after 4 t) = _
  rw [after10_4]
  unfold out10_4
  rw [View.canon_unit_zero Gnn.off2]
  simp only [View.ld_unit_zero (S := S2000x64) Gnn.off2, View.ld_unit_zero (S := S64x64) Gnn.off2, View.ld_unit_zero (S := S1x64) Gnn.off2]
  rw [r10_pay]
  obtain ⟨e00, e01, e10, e11, e20, e21, e30, e31, e40, e41⟩ := r10_idx t
  have ht := r10_N t
  funext j
  obtain ⟨p, q, rfl⟩ : ∃ (p : Fin 2000) (q : Fin 64), j = ix2 p q := ⟨j 0, j 1, eq_ix2 j⟩
  have hp : p.val < 2000 := p.isLt
  have hq : q.val < 64 := q.isLt
  have hr : t.val * 2000 + p.val < 50000 := by omega
  have he : ((cfg10.win 4).blk t).view.emb (ix2 p q) = ix2 (⟨t.val * 2000 + p.val, hr⟩ : Fin 50000) q := by
    funext a; apply Fin.ext
    match a with
    | ⟨0, _⟩ => show win10_4.index t (0 : Fin 2) * 2000 + 1 * p.val = t.val * 2000 + p.val; omega
    | ⟨1, _⟩ => show win10_4.index t (1 : Fin 2) * 64 + 1 * q.val = q.val; omega
  show Gnn.nodeUpd (n := 2000) (iblk10 V c 0 t) (iblk10 V c 1 t) (iblk10 V c 2 t) (iblk10 V c 3 t) (ix2 p q)
    = Gnn.nodeUpd (V c main_v83_0) (V c main_v112) (V c main_v110) (V c main_v115) (((cfg10.win 4).blk t).view.emb (ix2 p q))
  rw [he]
  refine r10_row _ _ _ _ _ _ _ _ p q _ (fun k => ?_) (fun k => ?_) ?_ ?_
  · show V c main_v83_0 (((cfg10.win 0).blk t).view.emb (ix2 p k)) = V c main_v83_0 _
    refine congrArg _ (funext fun a => Fin.ext ?_)
    have hk : k.val < 64 := k.isLt
    match a with
    | ⟨0, _⟩ => show win10_0.index t (0 : Fin 2) * 2000 + 1 * p.val = t.val * 2000 + p.val; omega
    | ⟨1, _⟩ => show win10_0.index t (1 : Fin 2) * 64 + 1 * k.val = k.val; omega
  · show V c main_v112 (((cfg10.win 1).blk t).view.emb (ix2 k q)) = V c main_v112 _
    refine congrArg _ (funext fun a => Fin.ext ?_)
    have hk : k.val < 64 := k.isLt
    match a with
    | ⟨0, _⟩ => show win10_1.index t (0 : Fin 2) * 64 + 1 * k.val = k.val; omega
    | ⟨1, _⟩ => show win10_1.index t (1 : Fin 2) * 64 + 1 * q.val = q.val; omega
  · show V c main_v110 (((cfg10.win 2).blk t).view.emb (ix2 p q)) = V c main_v110 _
    refine congrArg _ (funext fun a => Fin.ext ?_)
    match a with
    | ⟨0, _⟩ => show win10_2.index t (0 : Fin 2) * 2000 + 1 * p.val = t.val * 2000 + p.val; omega
    | ⟨1, _⟩ => show win10_2.index t (1 : Fin 2) * 64 + 1 * q.val = q.val; omega
  · show V c main_v115 (((cfg10.win 3).blk t).view.emb (ix2 0 q)) = V c main_v115 _
    refine congrArg _ (funext fun a => Fin.ext ?_)
    match a with
    | ⟨0, _⟩ => show win10_3.index t (0 : Fin 2) * 1 + 1 * 0 = 0; omega
    | ⟨1, _⟩ => show win10_3.index t (1 : Fin 2) * 64 + 1 * q.val = q.val; omega

theorem r10_cover (i : S50000x64.Idx) :
    ∃ t : Fin cfg10.N, (cfg10.win 4).flush t = true ∧ i ∈ ((cfg10.win 4).blk t).view.set := by
  obtain ⟨t, h⟩ := cover2000 N_10 (idx := win10_4.index) (fun t => (r10_idx t).2.2.2.2.2.2.2.2) i
  refine ⟨t, flush10_4 t, ?_⟩
  show i ∈ ((View.whole main_v116).slice (win10_4.rect t)).set
  rw [View.set_slice_whole, Rect.mem_set_unit]
  exact h

theorem out10 (c : Dev nD) : (dat10 (F := Ideal) V c).arrAt 4 cfg10.N
    = Gnn.nodeUpd (V c main_v83_0) (V c main_v112) (V c main_v110) (V c main_v115) :=
  (dat10 V c).arrAt_eq_of_cover 4 _ (fun t _ => r10_flushed V c t) r10_cover

end Cert.KernelIdeal.RegVal

end
-- ==== Proof.KVal2.lean ====
import proofs.«404994_j27599459844666_2_alg».proof.Proof.KBase
import proofs.«404994_j27599459844666_2_alg».proof.Proof.RegVal8
import proofs.«404994_j27599459844666_2_alg».proof.Proof.RegVal9
import proofs.«404994_j27599459844666_2_alg».proof.Proof.RegVal10
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.KCarry Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)
variable (c : Dev nD) (X : Gnn.NArr) (E : Gnn.EArr)

theorem kv2_toBuf_self (r : Ref sig .tc) (v : r.ty.Contents (Elt Ideal)) (h2 : r.space ≠ .host := by decide) (h3 : r.isScoped = false := by rfl) :
    (TRef.of (T := r.ty) r rfl h2 h3).toBuf v = v := rfl

theorem kv2_ofBuf_self (r : Ref sig .tc) (v : r.ty.Contents (Elt Ideal)) (h2 : r.space ≠ .host := by decide) (h3 : r.isScoped = false := by rfl) :
    (TRef.of (T := r.ty) r rfl h2 h3).ofBuf v = v := rfl

theorem kv2_addf (A B : Gnn.EArr) : addf (F := Ideal) (s := S800000x64) (φ := .f32) A B = Gnn.add A B := rfl

set_option maxHeartbeats 4000000 in
theorem kv2_take_of (V : Valuation τ sig (Elt Ideal)) (x : Gnn.NArr) (idx : IVec S800000 32)
    (hx : V (Proc.devRef .tc main_v100) = x) (hi : V (Proc.devRef .tc main_v1) = idx) :
    StableHlo.after hostOps9 V (Proc.devRef .tc main_v101) = takeK (F := Ideal) x idx := by
  dsimp only [hostOps9]
  after_results_simp
  unfold takeK inRangeK colK wrapK
  rw [
    kv2_toBuf_self main_v101, kv2_ofBuf_self main_call7_v14, kv2_toBuf_self main_call7_v14, kv2_ofBuf_self main_call7_v12,
    kv2_toBuf_self main_call7_v12, kv2_ofBuf_self main_call7_v11, kv2_toBuf_self main_call7_v11, kv2_ofBuf_self main_call7_v7,
    kv2_toBuf_self main_call7_v7, kv2_ofBuf_self main_call7_v5, kv2_toBuf_self main_call7_v5, kv2_ofBuf_self main_call7_v4,
    kv2_toBuf_self main_call7_v4, kv2_ofBuf_self main_call7_v1, kv2_toBuf_self main_call7_v1, kv2_ofBuf_self main_call7_v0,
    kv2_toBuf_self main_call7_v0, kv2_ofBuf_self main_call7_c, kv2_toBuf_self main_call7_c, kv2_ofBuf_self main_call7_v3,
    kv2_toBuf_self main_call7_v3, kv2_ofBuf_self main_call7_v2, kv2_toBuf_self main_call7_v2, kv2_ofBuf_self main_call7_c_0,
    kv2_toBuf_self main_call7_c_0, kv2_ofBuf_self main_call7_v6, kv2_toBuf_self main_call7_v6, kv2_ofBuf_self main_call7_v10,
    kv2_toBuf_self main_call7_v10, kv2_ofBuf_self main_call7_v9, kv2_toBuf_self main_call7_v9, kv2_ofBuf_self main_call7_v8,
    kv2_toBuf_self main_call7_v8, kv2_ofBuf_self main_call7_c_1, kv2_toBuf_self main_call7_c_1, kv2_ofBuf_self main_call7_c_3,
    kv2_toBuf_self main_call7_c_3, kv2_ofBuf_self main_call7_v13, kv2_toBuf_self main_call7_v13, kv2_ofBuf_self main_call7_v15,
    kv2_toBuf_self main_call7_v15, kv2_ofBuf_self main_call7_cst, kv2_toBuf_self main_call7_cst, kv2_ofBuf_self main_v1,
    kv2_ofBuf_self main_v100]
  rw [hx, hi]

theorem kv2_seg_of (V : Valuation τ sig (Elt Ideal)) (a1 : IVec S2x800000 32) (A B : Gnn.EArr)
    (hA : V (Proc.devRef .tc main_v101) = A) (hB : V (Proc.devRef .tc main_v104) = B)
    (h3 : V (Proc.devRef .tc main_v3) = dstK a1) (h11 : V (Proc.devRef .tc main_v11) = invK (F := Ideal) a1) :
    StableHlo.after hostOps10 V (Proc.devRef .tc main_v110) = segK (F := Ideal) a1 (Gnn.add A B) := by
  dsimp only [hostOps10]
  after_results
  unfold segK
  rw [hA, hB, h3, h11, kv2_addf]

theorem l2_wn : W25 m ρ c (Proc.devRef .tc main_v99) = Gnn.wSlice (m ((c : Thread nD τ).loc main_arg4)) 2 := by
  show StableHlo.after hostOps8 (W24 m ρ c) (Proc.devRef .tc main_v99) = _
  have h4 := (keep_main_arg4_0_24 m ρ c).trans (W0_at m ρ c main_arg4)
  generalize W24 m ρ c = V at h4 ⊢
  dsimp only [hostOps8]
  after_results
  rw [h4]
  exact wSlice_eq (2 : Fin 3) _ _ _

theorem l2_take (Y : Gnn.NArr) (hY : W26 m ρ c (Proc.devRef .tc main_v100) = Y) :
    W27 m ρ c (Proc.devRef .tc main_v101) = gSK m c Y :=
  kv2_take_of (W26 m ρ c) Y _ hY ((keep_main_v1_1_26 m ρ c).trans (src_at1 m ρ c))

theorem l2_we : W28 m ρ c (Proc.devRef .tc main_v103) = Gnn.wSlice (m ((c : Thread nD τ).loc main_arg5)) 2 := by
  show StableHlo.after hostOps9_1 (W27 m ρ c) (Proc.devRef .tc main_v103) = _
  have h5 := (keep_main_arg5_0_27 m ρ c).trans (W0_at m ρ c main_arg5)
  generalize W27 m ρ c = V at h5 ⊢
  dsimp only [hostOps9_1]
  after_results
  rw [h5]
  exact wSlice_eq (2 : Fin 3) _ _ _

theorem l2_seg (A B : Gnn.EArr) (hA : W29 m ρ c (Proc.devRef .tc main_v101) = A) (hB : W29 m ρ c (Proc.devRef .tc main_v104) = B) :
    W30 m ρ c (Proc.devRef .tc main_v110) = sgK m c (Gnn.add A B) :=
  kv2_seg_of (W29 m ρ c) _ A B hA hB ((keep_main_v3_1_29 m ρ c).trans (dst_at1 m ρ c)) ((keep_main_v11_3_29 m ρ c).trans (inv_at3 m ρ c))

theorem l2_wr : W30 m ρ c (Proc.devRef .tc main_v112) = Gnn.wSlice (m ((c : Thread nD τ).loc main_arg3)) 2 := by
  show StableHlo.after hostOps10 (W29 m ρ c) (Proc.devRef .tc main_v112) = _
  have h3 := (keep_main_arg3_0_29 m ρ c).trans (W0_at m ρ c main_arg3)
  generalize W29 m ρ c = V at h3 ⊢
  dsimp only [hostOps10]
  after_results
  rw [h3]
  exact wSlice_eq (2 : Fin 3) _ _ _

theorem l2_b : W30 m ρ c (Proc.devRef .tc main_v115) = Gnn.bRow (m ((c : Thread nD τ).loc main_arg6)) 2 := by
  show StableHlo.after hostOps10 (W29 m ρ c) (Proc.devRef .tc main_v115) = _
  have h6 := (keep_main_arg6_0_29 m ρ c).trans (W0_at m ρ c main_arg6)
  generalize W29 m ρ c = V at h6 ⊢
  dsimp only [hostOps10]
  after_results
  rw [h6]
  exact bRow_eq (2 : Fin 3) _ _ _ _

theorem l2_xwn (hX : W20 m ρ c (Proc.devRef .tc main_v83_0) = X) :
    W26 m ρ c (Proc.devRef .tc main_v100) = Gnn.mm X (Gnn.wSlice (m ((c : Thread nD τ).loc main_arg4)) 2) := by
  have hx : V25 m ρ c main_v83_0 = X := (keep_main_v83_0_20_25 m ρ c).trans hX
  have hw : V25 m ρ c main_v99 = Gnn.wSlice (m ((c : Thread nD τ).loc main_arg4)) 2 := l2_wn m ρ c
  have h := (W26_arr m ρ c 2).trans (RegVal.out8 (V25 m ρ) c)
  rw [hx, hw] at h
  exact h

theorem l2_ewe (hE : W24 m ρ c (Proc.devRef .tc main_v97) = E) :
    W29 m ρ c (Proc.devRef .tc main_v104) = Gnn.mm E (Gnn.wSlice (m ((c : Thread nD τ).loc main_arg5)) 2) := by
  have he : V28 m ρ c main_v97 = E := (keep_main_v97_24_28 m ρ c).trans hE
  have hw : V28 m ρ c main_v103 = Gnn.wSlice (m ((c : Thread nD τ).loc main_arg5)) 2 := l2_we m ρ c
  have h := (W29_arr m ρ c 2).trans (RegVal.out9 (V28 m ρ) c)
  rw [he, hw] at h
  exact h

theorem l2_x (hX : W20 m ρ c (Proc.devRef .tc main_v83_0) = X) (hE : W24 m ρ c (Proc.devRef .tc main_v97) = E) :
    W31 m ρ c (Proc.devRef .tc main_v116) = Gnn.xPreK (gSK m c) (sgK m c) (weightsK m c) 2 X E := by
  have h101 := l2_take m ρ c _ (l2_xwn m ρ c X hX)
  have h110 := l2_seg m ρ c _ _ ((keep_main_v101_27_29 m ρ c).trans h101) (l2_ewe m ρ c E hE)
  have hx : V30 m ρ c main_v83_0 = X := (keep_main_v83_0_20_30 m ρ c).trans hX
  have hwr : V30 m ρ c main_v112 = Gnn.wSlice (m ((c : Thread nD τ).loc main_arg3)) 2 := l2_wr m ρ c
  have hs : V30 m ρ c main_v110 = _ := h110
  have hb : V30 m ρ c main_v115 = Gnn.bRow (m ((c : Thread nD τ).loc main_arg6)) 2 := l2_b m ρ c
  have h := (W31_arr m ρ c 4).trans (RegVal.out10 (V30 m ρ) c)
  rw [hx, hwr, hs, hb] at h
  unfold Gnn.xPreK Gnn.msgK
  exact h

theorem l2_ea (hE : W24 m ρ c (Proc.devRef .tc main_v97) = E) : W31 m ρ c (Proc.devRef .tc main_v97) = E :=
  (keep_main_v97_24_31 m ρ c).trans hE

end Cert.KernelIdeal.KV

end
-- ==== Proof.KVal.lean ====
import proofs.«404994_j27599459844666_2_alg».proof.Proof.KVal0
import proofs.«404994_j27599459844666_2_alg».proof.Proof.KVal1
import proofs.«404994_j27599459844666_2_alg».proof.Proof.KVal2

set_option maxRecDepth 16384

noncomputable section

namespace Cert.KernelIdeal.KV

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

theorem out_x : W31 m ρ c (Proc.devRef .tc main_v116)
    = Gnn.outXK (gSK m c) (gDK m c) (sgK m c) (weightsK m c) (m ((c : Thread nD τ).loc main_arg0)) (m ((c : Thread nD τ).loc main_arg2)) :=
  l2_x m ρ c _ _
    (l1_x m ρ c _ _ (l0_x m ρ c _ _ (W0_at m ρ c main_arg0) (W0_at m ρ c main_arg2)) (l0_ea m ρ c _ _ (W0_at m ρ c main_arg0) (W0_at m ρ c main_arg2)))
    (l1_ea m ρ c _ _ (l0_x m ρ c _ _ (W0_at m ρ c main_arg0) (W0_at m ρ c main_arg2)) (l0_ea m ρ c _ _ (W0_at m ρ c main_arg0) (W0_at m ρ c main_arg2)))

theorem out_ea : W31 m ρ c (Proc.devRef .tc main_v97)
    = Gnn.ea2K (gSK m c) (gDK m c) (sgK m c) (weightsK m c) (m ((c : Thread nD τ).loc main_arg0)) (m ((c : Thread nD τ).loc main_arg2)) :=
  l2_ea m ρ c _
    (l1_ea m ρ c _ _ (l0_x m ρ c _ _ (W0_at m ρ c main_arg0) (W0_at m ρ c main_arg2)) (l0_ea m ρ c _ _ (W0_at m ρ c main_arg0) (W0_at m ρ c main_arg2)))

end Cert.KernelIdeal.KV

end
-- ==== Proof.RefRun.lean ====
import proofs.«404994_j27599459844666_2_alg».proof.Proof.RefOps
import Idealize.ShloMosaic.Lib.Pipeline.Frame
import Idealize.ShloMosaic.Lib.Pipeline.Regions

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

abbrev R0 (W : Valuation τ sig (Elt F)) : Valuation τ sig (Elt F) := W
abbrev R1 (W : Valuation τ sig (Elt F)) : Valuation τ sig (Elt F) := StableHlo.after ops0 (R0 W)
abbrev R2 (W : Valuation τ sig (Elt F)) : Valuation τ sig (Elt F) := StableHlo.after ops1 (R1 W)
abbrev R3 (W : Valuation τ sig (Elt F)) : Valuation τ sig (Elt F) := StableHlo.after ops2 (R2 W)
abbrev R4 (W : Valuation τ sig (Elt F)) : Valuation τ sig (Elt F) := StableHlo.after ops3 (R3 W)
abbrev R5 (W : Valuation τ sig (Elt F)) : Valuation τ sig (Elt F) := StableHlo.after ops4 (R4 W)
abbrev R6 (W : Valuation τ sig (Elt F)) : Valuation τ sig (Elt F) := StableHlo.after ops5 (R5 W)
abbrev R7 (W : Valuation τ sig (Elt F)) : Valuation τ sig (Elt F) := StableHlo.after ops6 (R6 W)
abbrev R8 (W : Valuation τ sig (Elt F)) : Valuation τ sig (Elt F) := StableHlo.after ops7 (R7 W)
abbrev R9 (W : Valuation τ sig (Elt F)) : Valuation τ sig (Elt F) := StableHlo.after ops8 (R8 W)
abbrev R10 (W : Valuation τ sig (Elt F)) : Valuation τ sig (Elt F) := StableHlo.after ops9 (R9 W)
abbrev R11 (W : Valuation τ sig (Elt F)) : Valuation τ sig (Elt F) := StableHlo.after ops10 (R10 W)
abbrev R12 (W : Valuation τ sig (Elt F)) : Valuation τ sig (Elt F) := StableHlo.after ops11 (R11 W)
abbrev R13 (W : Valuation τ sig (Elt F)) : Valuation τ sig (Elt F) := StableHlo.after ops12 (R12 W)
abbrev R14 (W : Valuation τ sig (Elt F)) : Valuation τ sig (Elt F) := StableHlo.after ops13 (R13 W)
abbrev R15 (W : Valuation τ sig (Elt F)) : Valuation τ sig (Elt F) := StableHlo.after ops14 (R14 W)
abbrev R16 (W : Valuation τ sig (Elt F)) : Valuation τ sig (Elt F) := StableHlo.after ops15 (R15 W)
abbrev R17 (W : Valuation τ sig (Elt F)) : Valuation τ sig (Elt F) := StableHlo.after ops16 (R16 W)
abbrev R18 (W : Valuation τ sig (Elt F)) : Valuation τ sig (Elt F) := StableHlo.after ops17 (R17 W)
abbrev R19 (W : Valuation τ sig (Elt F)) : Valuation τ sig (Elt F) := StableHlo.after ops18 (R18 W)
abbrev R20 (W : Valuation τ sig (Elt F)) : Valuation τ sig (Elt F) := StableHlo.after ops19 (R19 W)
abbrev R21 (W : Valuation τ sig (Elt F)) : Valuation τ sig (Elt F) := StableHlo.after ops20 (R20 W)
abbrev R22 (W : Valuation τ sig (Elt F)) : Valuation τ sig (Elt F) := StableHlo.after ops21 (R21 W)

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub ..⟩
theorem ops0_fresh : (ops0 : List (HloOp τ sig (Elt F))).Forall fun op => op.fresh = ∅ := by
  simp only [List.Forall]; repeat' constructor

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., binary_bufs_sub .., binary_bufs_sub ..⟩
theorem ops1_fresh : (ops1 : List (HloOp τ sig (Elt F))).Forall fun op => op.fresh = ∅ := by
  simp only [List.Forall]; repeat' constructor

theorem ops2_sub : (ops2 : List (HloOp τ sig (Elt F))).Forall fun op => op.bufs ⊆ tcRefs τ sig :=
  ⟨nullary_bufs_sub .., unary_bufs_sub .., unary_bufs_sub .., ternary_bufs_sub .., unary_bufs_sub .., binary_bufs_sub ..⟩
theorem ops2_fresh : (ops2 : List (HloOp τ sig (Elt F))).Forall fun op => op.fresh = ∅ := by
  simp only [List.Forall]; repeat' constructor

theorem ops3_sub : (ops3 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub ..⟩
theorem ops3_fresh : (ops3 : List (HloOp τ sig (Elt F))).Forall fun op => op.fresh = ∅ := by
  simp only [List.Forall]; repeat' constructor

theorem ops4_sub : (ops4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem ops4_fresh : (ops4 : List (HloOp τ sig (Elt F))).Forall fun op => op.fresh = ∅ := by
  simp only [List.Forall]; repeat' constructor

theorem ops5_sub : (ops5 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem ops5_fresh : (ops5 : List (HloOp τ sig (Elt F))).Forall fun op => op.fresh = ∅ := by
  simp only [List.Forall]; repeat' constructor

theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem ops6_fresh : (ops6 : List (HloOp τ sig (Elt F))).Forall fun op => op.fresh = ∅ := by
  simp only [List.Forall]; repeat' constructor

theorem ops7_sub : (ops7 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem ops7_fresh : (ops7 : List (HloOp τ sig (Elt F))).Forall fun op => op.fresh = ∅ := by
  simp only [List.Forall]; repeat' constructor

theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem ops8_fresh : (ops8 : List (HloOp τ sig (Elt F))).Forall fun op => op.fresh = ∅ := by
  simp only [List.Forall]; repeat' constructor

theorem ops9_sub : (ops9 : List (HloOp τ sig (Elt F))).Forall fun op => op.bufs ⊆ tcRefs τ sig :=
  ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem ops9_fresh : (ops9 : List (HloOp τ sig (Elt F))).Forall fun op => op.fresh = ∅ := by
  simp only [List.Forall]; repeat' constructor

theorem ops10_sub : (ops10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., binary_bufs_sub .., binary_bufs_sub ..⟩
theorem ops10_fresh : (ops10 : List (HloOp τ sig (Elt F))).Forall fun op => op.fresh = ∅ := by
  simp only [List.Forall]; repeat' constructor

theorem ops11_sub : (ops11 : List (HloOp τ sig (Elt F))).Forall fun op => op.bufs ⊆ tcRefs τ sig :=
  ⟨nullary_bufs_sub .., unary_bufs_sub .., unary_bufs_sub .., ternary_bufs_sub .., unary_bufs_sub .., binary_bufs_sub ..⟩
theorem ops11_fresh : (ops11 : List (HloOp τ sig (Elt F))).Forall fun op => op.fresh = ∅ := by
  simp only [List.Forall]; repeat' constructor

theorem ops12_sub : (ops12 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub .., nullary_bufs_sub .., unary_bufs_sub .., binary_bufs_sub ..⟩
theorem ops12_fresh : (ops12 : List (HloOp τ sig (Elt F))).Forall fun op => op.fresh = ∅ := by
  simp only [List.Forall]; repeat' constructor

theorem ops13_sub : (ops13 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem ops13_fresh : (ops13 : List (HloOp τ sig (Elt F))).Forall fun op => op.fresh = ∅ := by
  simp only [List.Forall]; repeat' constructor

theorem ops14_sub : (ops14 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem ops14_fresh : (ops14 : List (HloOp τ sig (Elt F))).Forall fun op => op.fresh = ∅ := by
  simp only [List.Forall]; repeat' constructor

theorem ops15_sub : (ops15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem ops15_fresh : (ops15 : List (HloOp τ sig (Elt F))).Forall fun op => op.fresh = ∅ := by
  simp only [List.Forall]; repeat' constructor

theorem ops16_sub : (ops16 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem ops16_fresh : (ops16 : List (HloOp τ sig (Elt F))).Forall fun op => op.fresh = ∅ := by
  simp only [List.Forall]; repeat' constructor

theorem ops17_sub : (ops17 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem ops17_fresh : (ops17 : List (HloOp τ sig (Elt F))).Forall fun op => op.fresh = ∅ := by
  simp only [List.Forall]; repeat' constructor

theorem ops18_sub : (ops18 : List (HloOp τ sig (Elt F))).Forall fun op => op.bufs ⊆ tcRefs τ sig :=
  ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem ops18_fresh : (ops18 : List (HloOp τ sig (Elt F))).Forall fun op => op.fresh = ∅ := by
  simp only [List.Forall]; repeat' constructor

theorem ops19_sub : (ops19 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., binary_bufs_sub .., binary_bufs_sub ..⟩
theorem ops19_fresh : (ops19 : List (HloOp τ sig (Elt F))).Forall fun op => op.fresh = ∅ := by
  simp only [List.Forall]; repeat' constructor

theorem ops20_sub : (ops20 : List (HloOp τ sig (Elt F))).Forall fun op => op.bufs ⊆ tcRefs τ sig :=
  ⟨nullary_bufs_sub .., unary_bufs_sub .., unary_bufs_sub .., ternary_bufs_sub .., unary_bufs_sub .., binary_bufs_sub ..⟩
theorem ops20_fresh : (ops20 : List (HloOp τ sig (Elt F))).Forall fun op => op.fresh = ∅ := by
  simp only [List.Forall]; repeat' constructor

theorem ops21_sub : (ops21 : List (HloOp τ sig (Elt F))).Forall fun op => op.bufs ⊆ tcRefs τ sig :=
  ⟨unary_bufs_sub .., reshape_bufs_sub .., binary_bufs_sub .., binary_bufs_sub .., unary_bufs_sub .., reshape_bufs_sub .., unary_bufs_sub .., unary_bufs_sub .., binary_bufs_sub ..⟩
theorem ops21_fresh : (ops21 : List (HloOp τ sig (Elt F))).Forall fun op => op.fresh = ∅ := by
  simp only [List.Forall]; repeat' constructor

theorem allOps_sub : ∀ op ∈ (allOps : List (HloOp τ sig (Elt F))), op.bufs ⊆ tcRefs τ sig := by
  simp only [allOps, List.forall_mem_append, and_assoc]
  exact ⟨List.forall_iff_forall_mem.mp ops0_sub, List.forall_iff_forall_mem.mp ops1_sub, List.forall_iff_forall_mem.mp ops2_sub, List.forall_iff_forall_mem.mp ops3_sub, List.forall_iff_forall_mem.mp ops4_sub, List.forall_iff_forall_mem.mp ops5_sub, List.forall_iff_forall_mem.mp ops6_sub, List.forall_iff_forall_mem.mp ops7_sub, List.forall_iff_forall_mem.mp ops8_sub, List.forall_iff_forall_mem.mp ops9_sub, List.forall_iff_forall_mem.mp ops10_sub, List.forall_iff_forall_mem.mp ops11_sub, List.forall_iff_forall_mem.mp ops12_sub, List.forall_iff_forall_mem.mp ops13_sub, List.forall_iff_forall_mem.mp ops14_sub, List.forall_iff_forall_mem.mp ops15_sub, List.forall_iff_forall_mem.mp ops16_sub, List.forall_iff_forall_mem.mp ops17_sub, List.forall_iff_forall_mem.mp ops18_sub, List.forall_iff_forall_mem.mp ops19_sub, List.forall_iff_forall_mem.mp ops20_sub, List.forall_iff_forall_mem.mp ops21_sub⟩

theorem allOps_fresh : ∀ op ∈ (allOps : List (HloOp τ sig (Elt F))), op.fresh = ∅ := by
  simp only [allOps, List.forall_mem_append, and_assoc]
  exact ⟨List.forall_iff_forall_mem.mp ops0_fresh, List.forall_iff_forall_mem.mp ops1_fresh, List.forall_iff_forall_mem.mp ops2_fresh, List.forall_iff_forall_mem.mp ops3_fresh, List.forall_iff_forall_mem.mp ops4_fresh, List.forall_iff_forall_mem.mp ops5_fresh, List.forall_iff_forall_mem.mp ops6_fresh, List.forall_iff_forall_mem.mp ops7_fresh, List.forall_iff_forall_mem.mp ops8_fresh, List.forall_iff_forall_mem.mp ops9_fresh, List.forall_iff_forall_mem.mp ops10_fresh, List.forall_iff_forall_mem.mp ops11_fresh, List.forall_iff_forall_mem.mp ops12_fresh, List.forall_iff_forall_mem.mp ops13_fresh, List.forall_iff_forall_mem.mp ops14_fresh, List.forall_iff_forall_mem.mp ops15_fresh, List.forall_iff_forall_mem.mp ops16_fresh, List.forall_iff_forall_mem.mp ops17_fresh, List.forall_iff_forall_mem.mp ops18_fresh, List.forall_iff_forall_mem.mp ops19_fresh, List.forall_iff_forall_mem.mp ops20_fresh, List.forall_iff_forall_mem.mp ops21_fresh⟩

theorem run_of (ops : List (HloOp τ sig (Elt F))) (hmain : ∀ c : Dev nD, main (F := F) c = seq ops)
    (hsub : ∀ op ∈ ops, op.bufs ⊆ tcRefs τ sig) (hfresh : ∀ op ∈ ops, op.fresh = ∅)
    (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (launchContents m d) (Proc.devRef .tc b) :=
  run_seq scopedRefs_eq scopedSems_eq defs main (fun _ => ops) hmain (fun _ => List.forall_iff_forall_mem.mpr hsub) m ρ
    (hfresh := fun _ => hfresh)

set_option maxRecDepth 8192 in
set_option maxHeartbeats 4000000 in
theorem main_eq (c : Dev nD) : main (F := F) c = seq allOps := by
  chain_rfl

theorem after_allOps (W : Valuation τ sig (Elt F)) : StableHlo.after allOps W = R22 W := by
  simp only [allOps, StableHlo.after_append]

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = R22 (launchContents m d) (Proc.devRef .tc b) := by
  exact (θ_run defs _ _).mono (fun _ h d b => (h d b).trans (congrFun (after_allOps (launchContents m d)) (Proc.devRef .tc b)))
    (run_of allOps main_eq allOps_sub allOps_fresh m ρ)

end Cert.ReferenceIdeal.RRun

end
-- ==== Proof.RefCarry.lean ====
import proofs.«404994_j27599459844666_2_alg».proof.Proof.RefRun
import proofs.«404994_j27599459844666_2_alg».proof.Proof.Carry

set_option maxRecDepth 16384

noncomputable section

namespace Cert.ReferenceIdeal.RRun

open Cert.ReferenceIdeal Cert.ReferenceIdeal.Gen Cert.Carry Idealize.ShloMosaic Idealize.ShloMosaic.TcCoe Idealize.SL.Sem Idealize.ShloMosaic.StableHlo

variable {F : FTy → Type} [FloatOps F]

abbrev ops0_W : List (Ref sig .tc) := [main_v0, main_v1, main_v2, main_v3, main_cst, main_v4, main_cst_0, main_v5, main_v6, main_v7, main_cst_1, main_call0_v0, main_call0_v1, main_v8, main_cst_2, main_v9, main_v10, main_v11]
theorem ops0_writes : Writes (ops0 : List (HloOp τ sig (Elt F))) ops0_W := by
  simp only [Writes, List.Forall]; repeat' apply And.intro
  all_goals exact wr1 (by decide)

abbrev ops1_W : List (Ref sig .tc) := [main_c, main_v12, main_v13, main_c_3, main_v14, main_v15, main_v16, main_v17, main_v18, main_v19, main_v20, main_v21, main_v22, main_v23, main_v24, main_v25]
theorem ops1_writes : Writes (ops1 : List (HloOp τ sig (Elt F))) ops1_W := by
  simp only [Writes, List.Forall]; repeat' apply And.intro
  all_goals exact wr1 (by decide)

abbrev ops2_W : List (Ref sig .tc) := [main_cst_4, main_v26, main_v27, main_v28, main_v29, main_v30]
theorem ops2_writes : Writes (ops2 : List (HloOp τ sig (Elt F))) ops2_W := by
  simp only [Writes, List.Forall]; repeat' apply And.intro
  all_goals exact wr1 (by decide)

abbrev ops3_W : List (Ref sig .tc) := [main_v31, main_v32, main_v33, main_v34, main_v35, main_v36, main_v37, main_v38, main_v39, main_call1_cst, main_call1_v0, main_v40]
theorem ops3_writes : Writes (ops3 : List (HloOp τ sig (Elt F))) ops3_W := by
  simp only [Writes, List.Forall]; repeat' apply And.intro
  all_goals exact wr1 (by decide)

abbrev ops4_W : List (Ref sig .tc) := [main_v41, main_v42, main_v43, main_v44, main_v45, main_v46, main_v47, main_v48]
theorem ops4_writes : Writes (ops4 : List (HloOp τ sig (Elt F))) ops4_W := by
  simp only [Writes, List.Forall]; repeat' apply And.intro
  all_goals exact wr1 (by decide)

abbrev ops5_W : List (Ref sig .tc) := [main_v49, main_v50, main_v51, main_v52, main_v53, main_v54, main_v55, main_v56]
theorem ops5_writes : Writes (ops5 : List (HloOp τ sig (Elt F))) ops5_W := by
  simp only [Writes, List.Forall]; repeat' apply And.intro
  all_goals exact wr1 (by decide)

abbrev ops6_W : List (Ref sig .tc) := [main_c_5, main_v57, main_v58, main_c_6, main_v59, main_v60, main_v61, main_v62, main_v63, main_v64]
theorem ops6_writes : Writes (ops6 : List (HloOp τ sig (Elt F))) ops6_W := by
  simp only [Writes, List.Forall]; repeat' apply And.intro
  all_goals exact wr1 (by decide)

abbrev ops7_W : List (Ref sig .tc) := [main_v65, main_v66, main_v67, main_v68, main_v69, main_v70, main_v71, main_v72]
theorem ops7_writes : Writes (ops7 : List (HloOp τ sig (Elt F))) ops7_W := by
  simp only [Writes, List.Forall]; repeat' apply And.intro
  all_goals exact wr1 (by decide)

abbrev ops8_W : List (Ref sig .tc) := [main_c_7, main_v73, main_v74, main_c_8, main_v75, main_v76, main_v77, main_v78, main_v79, main_v80]
theorem ops8_writes : Writes (ops8 : List (HloOp τ sig (Elt F))) ops8_W := by
  simp only [Writes, List.Forall]; repeat' apply And.intro
  all_goals exact wr1 (by decide)

abbrev ops9_W : List (Ref sig .tc) := [main_call2_cst, main_call2_v0, main_v81, main_v82, main_v83, main_v84, main_v85, main_v86, main_v87, main_v88, main_v89]
theorem ops9_writes : Writes (ops9 : List (HloOp τ sig (Elt F))) ops9_W := by
  simp only [Writes, List.Forall]; repeat' apply And.intro
  all_goals exact wr1 (by decide)

abbrev ops10_W : List (Ref sig .tc) := [main_c_9, main_v90, main_v91, main_c_10, main_v92, main_v93, main_v94, main_v95, main_v96, main_v97, main_v98, main_v99, main_v100, main_v101, main_v102, main_v103]
theorem ops10_writes : Writes (ops10 : List (HloOp τ sig (Elt F))) ops10_W := by
  simp only [Writes, List.Forall]; repeat' apply And.intro
  all_goals exact wr1 (by decide)

abbrev ops11_W : List (Ref sig .tc) := [main_cst_11, main_v104, main_v105, main_v106, main_v107, main_v108]
theorem ops11_writes : Writes (ops11 : List (HloOp τ sig (Elt F))) ops11_W := by
  simp only [Writes, List.Forall]; repeat' apply And.intro
  all_goals exact wr1 (by decide)

abbrev ops12_W : List (Ref sig .tc) := [main_v109, main_v110, main_v111, main_v112, main_v113, main_v114, main_v115, main_v116, main_v117, main_call3_cst, main_call3_v0, main_v118]
theorem ops12_writes : Writes (ops12 : List (HloOp τ sig (Elt F))) ops12_W := by
  simp only [Writes, List.Forall]; repeat' apply And.intro
  all_goals exact wr1 (by decide)

abbrev ops13_W : List (Ref sig .tc) := [main_v119, main_v120, main_v121, main_v122, main_v123, main_v124, main_v125, main_v126]
theorem ops13_writes : Writes (ops13 : List (HloOp τ sig (Elt F))) ops13_W := by
  simp only [Writes, List.Forall]; repeat' apply And.intro
  all_goals exact wr1 (by decide)

abbrev ops14_W : List (Ref sig .tc) := [main_v127, main_v128, main_v129, main_v130, main_v131, main_v132, main_v133, main_v134]
theorem ops14_writes : Writes (ops14 : List (HloOp τ sig (Elt F))) ops14_W := by
  simp only [Writes, List.Forall]; repeat' apply And.intro
  all_goals exact wr1 (by decide)

abbrev ops15_W : List (Ref sig .tc) := [main_c_12, main_v135, main_v136, main_c_13, main_v137, main_v138, main_v139, main_v140, main_v141, main_v142]
theorem ops15_writes : Writes (ops15 : List (HloOp τ sig (Elt F))) ops15_W := by
  simp only [Writes, List.Forall]; repeat' apply And.intro
  all_goals exact wr1 (by decide)

abbrev ops16_W : List (Ref sig .tc) := [main_v143, main_v144, main_v145, main_v146, main_v147, main_v148, main_v149, main_v150]
theorem ops16_writes : Writes (ops16 : List (HloOp τ sig (Elt F))) ops16_W := by
  simp only [Writes, List.Forall]; repeat' apply And.intro
  all_goals exact wr1 (by decide)

abbrev ops17_W : List (Ref sig .tc) := [main_c_14, main_v151, main_v152, main_c_15, main_v153, main_v154, main_v155, main_v156, main_v157, main_v158]
theorem ops17_writes : Writes (ops17 : List (HloOp τ sig (Elt F))) ops17_W := by
  simp only [Writes, List.Forall]; repeat' apply And.intro
  all_goals exact wr1 (by decide)

abbrev ops18_W : List (Ref sig .tc) := [main_call4_cst, main_call4_v0, main_v159, main_v160, main_v161, main_v162, main_v163, main_v164, main_v165, main_v166, main_v167]
theorem ops18_writes : Writes (ops18 : List (HloOp τ sig (Elt F))) ops18_W := by
  simp only [Writes, List.Forall]; repeat' apply And.intro
  all_goals exact wr1 (by decide)

abbrev ops19_W : List (Ref sig .tc) := [main_c_16, main_v168, main_v169, main_c_17, main_v170, main_v171, main_v172, main_v173, main_v174, main_v175, main_v176, main_v177, main_v178, main_v179, main_v180, main_v181]
theorem ops19_writes : Writes (ops19 : List (HloOp τ sig (Elt F))) ops19_W := by
  simp only [Writes, List.Forall]; repeat' apply And.intro
  all_goals exact wr1 (by decide)

abbrev ops20_W : List (Ref sig .tc) := [main_cst_18, main_v182, main_v183, main_v184, main_v185, main_v186]
theorem ops20_writes : Writes (ops20 : List (HloOp τ sig (Elt F))) ops20_W := by
  simp only [Writes, List.Forall]; repeat' apply And.intro
  all_goals exact wr1 (by decide)

abbrev ops21_W : List (Ref sig .tc) := [main_v187, main_v188, main_v189, main_v190, main_v191, main_v192, main_v193, main_v194, main_v195]
theorem ops21_writes : Writes (ops21 : List (HloOp τ sig (Elt F))) ops21_W := by
  simp only [Writes, List.Forall]; repeat' apply And.intro
  all_goals exact wr1 (by decide)

/-- What each stretch writes. -/
noncomputable def wrs : List (List (Ref sig .tc)) :=
  [ops0_W, ops1_W, ops2_W, ops3_W, ops4_W, ops5_W, ops6_W, ops7_W, ops8_W, ops9_W, ops10_W, ops11_W, ops12_W, ops13_W, ops14_W, ops15_W, ops16_W, ops17_W, ops18_W, ops19_W, ops20_W, ops21_W]

variable (W : Valuation τ sig (Elt F))

/-- The buffer contents after each number of stretches, in order. -/
def Rs : List (Valuation τ sig (Elt F)) :=
  [R0 W, R1 W, R2 W, R3 W, R4 W, R5 W, R6 W, R7 W, R8 W, R9 W, R10 W, R11 W, R12 W, R13 W, R14 W, R15 W, R16 W, R17 W, R18 W, R19 W, R20 W, R21 W, R22 W]

theorem valid : Valid (Rs W) wrs :=
  ⟨after_of_writes_sub ops0 _ ops0_writes,
   after_of_writes_sub ops1 _ ops1_writes,
   after_of_writes_sub ops2 _ ops2_writes,
   after_of_writes_sub ops3 _ ops3_writes,
   after_of_writes_sub ops4 _ ops4_writes,
   after_of_writes_sub ops5 _ ops5_writes,
   after_of_writes_sub ops6 _ ops6_writes,
   after_of_writes_sub ops7 _ ops7_writes,
   after_of_writes_sub ops8 _ ops8_writes,
   after_of_writes_sub ops9 _ ops9_writes,
   after_of_writes_sub ops10 _ ops10_writes,
   after_of_writes_sub ops11 _ ops11_writes,
   after_of_writes_sub ops12 _ ops12_writes,
   after_of_writes_sub ops13 _ ops13_writes,
   after_of_writes_sub ops14 _ ops14_writes,
   after_of_writes_sub ops15 _ ops15_writes,
   after_of_writes_sub ops16 _ ops16_writes,
   after_of_writes_sub ops17 _ ops17_writes,
   after_of_writes_sub ops18 _ ops18_writes,
   after_of_writes_sub ops19 _ ops19_writes,
   after_of_writes_sub ops20 _ ops20_writes,
   after_of_writes_sub ops21 _ ops21_writes,
   trivial⟩

theorem keep_main_arg0_0_1 : R1 W (Proc.devRef .tc main_arg0) = R0 W (Proc.devRef .tc main_arg0) :=
  carry (valid W) 0 1 (by decide) rfl rfl
theorem keep_main_arg4_0_1 : R1 W (Proc.devRef .tc main_arg4) = R0 W (Proc.devRef .tc main_arg4) :=
  carry (valid W) 0 1 (by decide) rfl rfl
theorem keep_main_arg5_0_1 : R1 W (Proc.devRef .tc main_arg5) = R0 W (Proc.devRef .tc main_arg5) :=
  carry (valid W) 0 1 (by decide) rfl rfl
theorem keep_main_arg2_0_1 : R1 W (Proc.devRef .tc main_arg2) = R0 W (Proc.devRef .tc main_arg2) :=
  carry (valid W) 0 1 (by decide) rfl rfl
theorem keep_main_v3_1_2 : R2 W (Proc.devRef .tc main_v3) = R1 W (Proc.devRef .tc main_v3) :=
  carry (valid W) 1 1 (by decide) rfl rfl
theorem keep_main_v11_1_2 : R2 W (Proc.devRef .tc main_v11) = R1 W (Proc.devRef .tc main_v11) :=
  carry (valid W) 1 1 (by decide) rfl rfl
theorem keep_main_arg3_0_3 : R3 W (Proc.devRef .tc main_arg3) = R0 W (Proc.devRef .tc main_arg3) :=
  carry (valid W) 0 3 (by decide) rfl rfl
theorem keep_main_arg0_0_3 : R3 W (Proc.devRef .tc main_arg0) = R0 W (Proc.devRef .tc main_arg0) :=
  carry (valid W) 0 3 (by decide) rfl rfl
theorem keep_main_arg6_0_3 : R3 W (Proc.devRef .tc main_arg6) = R0 W (Proc.devRef .tc main_arg6) :=
  carry (valid W) 0 3 (by decide) rfl rfl
theorem keep_main_arg7_0_4 : R4 W (Proc.devRef .tc main_arg7) = R0 W (Proc.devRef .tc main_arg7) :=
  carry (valid W) 0 4 (by decide) rfl rfl
theorem keep_main_arg2_0_4 : R4 W (Proc.devRef .tc main_arg2) = R0 W (Proc.devRef .tc main_arg2) :=
  carry (valid W) 0 4 (by decide) rfl rfl
theorem keep_main_arg8_0_4 : R4 W (Proc.devRef .tc main_arg8) = R0 W (Proc.devRef .tc main_arg8) :=
  carry (valid W) 0 4 (by decide) rfl rfl
theorem keep_main_arg9_0_5 : R5 W (Proc.devRef .tc main_arg9) = R0 W (Proc.devRef .tc main_arg9) :=
  carry (valid W) 0 5 (by decide) rfl rfl
theorem keep_main_v40_4_5 : R5 W (Proc.devRef .tc main_v40) = R4 W (Proc.devRef .tc main_v40) :=
  carry (valid W) 4 1 (by decide) rfl rfl
theorem keep_main_arg10_0_5 : R5 W (Proc.devRef .tc main_arg10) = R0 W (Proc.devRef .tc main_arg10) :=
  carry (valid W) 0 5 (by decide) rfl rfl
theorem keep_main_v1_1_6 : R6 W (Proc.devRef .tc main_v1) = R1 W (Proc.devRef .tc main_v1) :=
  carry (valid W) 1 5 (by decide) rfl rfl
theorem keep_main_v48_5_6 : R6 W (Proc.devRef .tc main_v48) = R5 W (Proc.devRef .tc main_v48) :=
  carry (valid W) 5 1 (by decide) rfl rfl
theorem keep_main_arg11_0_7 : R7 W (Proc.devRef .tc main_arg11) = R0 W (Proc.devRef .tc main_arg11) :=
  carry (valid W) 0 7 (by decide) rfl rfl
theorem keep_main_v40_4_7 : R7 W (Proc.devRef .tc main_v40) = R4 W (Proc.devRef .tc main_v40) :=
  carry (valid W) 4 3 (by decide) rfl rfl
theorem keep_main_arg12_0_7 : R7 W (Proc.devRef .tc main_arg12) = R0 W (Proc.devRef .tc main_arg12) :=
  carry (valid W) 0 7 (by decide) rfl rfl
theorem keep_main_v3_1_8 : R8 W (Proc.devRef .tc main_v3) = R1 W (Proc.devRef .tc main_v3) :=
  carry (valid W) 1 7 (by decide) rfl rfl
theorem keep_main_v64_7_8 : R8 W (Proc.devRef .tc main_v64) = R7 W (Proc.devRef .tc main_v64) :=
  carry (valid W) 7 1 (by decide) rfl rfl
theorem keep_main_arg13_0_9 : R9 W (Proc.devRef .tc main_arg13) = R0 W (Proc.devRef .tc main_arg13) :=
  carry (valid W) 0 9 (by decide) rfl rfl
theorem keep_main_arg14_0_9 : R9 W (Proc.devRef .tc main_arg14) = R0 W (Proc.devRef .tc main_arg14) :=
  carry (valid W) 0 9 (by decide) rfl rfl
theorem keep_main_v1_1_10 : R10 W (Proc.devRef .tc main_v1) = R1 W (Proc.devRef .tc main_v1) :=
  carry (valid W) 1 9 (by decide) rfl rfl
theorem keep_main_v40_4_10 : R10 W (Proc.devRef .tc main_v40) = R4 W (Proc.devRef .tc main_v40) :=
  carry (valid W) 4 6 (by decide) rfl rfl
theorem keep_main_arg4_0_10 : R10 W (Proc.devRef .tc main_arg4) = R0 W (Proc.devRef .tc main_arg4) :=
  carry (valid W) 0 10 (by decide) rfl rfl
theorem keep_main_arg5_0_10 : R10 W (Proc.devRef .tc main_arg5) = R0 W (Proc.devRef .tc main_arg5) :=
  carry (valid W) 0 10 (by decide) rfl rfl
theorem keep_main_v3_1_11 : R11 W (Proc.devRef .tc main_v3) = R1 W (Proc.devRef .tc main_v3) :=
  carry (valid W) 1 10 (by decide) rfl rfl
theorem keep_main_v11_1_11 : R11 W (Proc.devRef .tc main_v11) = R1 W (Proc.devRef .tc main_v11) :=
  carry (valid W) 1 10 (by decide) rfl rfl
theorem keep_main_arg3_0_12 : R12 W (Proc.devRef .tc main_arg3) = R0 W (Proc.devRef .tc main_arg3) :=
  carry (valid W) 0 12 (by decide) rfl rfl
theorem keep_main_v40_4_12 : R12 W (Proc.devRef .tc main_v40) = R4 W (Proc.devRef .tc main_v40) :=
  carry (valid W) 4 8 (by decide) rfl rfl
theorem keep_main_arg6_0_12 : R12 W (Proc.devRef .tc main_arg6) = R0 W (Proc.devRef .tc main_arg6) :=
  carry (valid W) 0 12 (by decide) rfl rfl
theorem keep_main_arg7_0_13 : R13 W (Proc.devRef .tc main_arg7) = R0 W (Proc.devRef .tc main_arg7) :=
  carry (valid W) 0 13 (by decide) rfl rfl
theorem keep_main_v89_10_13 : R13 W (Proc.devRef .tc main_v89) = R10 W (Proc.devRef .tc main_v89) :=
  carry (valid W) 10 3 (by decide) rfl rfl
theorem keep_main_arg8_0_13 : R13 W (Proc.devRef .tc main_arg8) = R0 W (Proc.devRef .tc main_arg8) :=
  carry (valid W) 0 13 (by decide) rfl rfl
theorem keep_main_arg9_0_14 : R14 W (Proc.devRef .tc main_arg9) = R0 W (Proc.devRef .tc main_arg9) :=
  carry (valid W) 0 14 (by decide) rfl rfl
theorem keep_main_v118_13_14 : R14 W (Proc.devRef .tc main_v118) = R13 W (Proc.devRef .tc main_v118) :=
  carry (valid W) 13 1 (by decide) rfl rfl
theorem keep_main_arg10_0_14 : R14 W (Proc.devRef .tc main_arg10) = R0 W (Proc.devRef .tc main_arg10) :=
  carry (valid W) 0 14 (by decide) rfl rfl
theorem keep_main_v1_1_15 : R15 W (Proc.devRef .tc main_v1) = R1 W (Proc.devRef .tc main_v1) :=
  carry (valid W) 1 14 (by decide) rfl rfl
theorem keep_main_v126_14_15 : R15 W (Proc.devRef .tc main_v126) = R14 W (Proc.devRef .tc main_v126) :=
  carry (valid W) 14 1 (by decide) rfl rfl
theorem keep_main_arg11_0_16 : R16 W (Proc.devRef .tc main_arg11) = R0 W (Proc.devRef .tc main_arg11) :=
  carry (valid W) 0 16 (by decide) rfl rfl
theorem keep_main_v118_13_16 : R16 W (Proc.devRef .tc main_v118) = R13 W (Proc.devRef .tc main_v118) :=
  carry (valid W) 13 3 (by decide) rfl rfl
theorem keep_main_arg12_0_16 : R16 W (Proc.devRef .tc main_arg12) = R0 W (Proc.devRef .tc main_arg12) :=
  carry (valid W) 0 16 (by decide) rfl rfl
theorem keep_main_v3_1_17 : R17 W (Proc.devRef .tc main_v3) = R1 W (Proc.devRef .tc main_v3) :=
  carry (valid W) 1 16 (by decide) rfl rfl
theorem keep_main_v142_16_17 : R17 W (Proc.devRef .tc main_v142) = R16 W (Proc.devRef .tc main_v142) :=
  carry (valid W) 16 1 (by decide) rfl rfl
theorem keep_main_arg13_0_18 : R18 W (Proc.devRef .tc main_arg13) = R0 W (Proc.devRef .tc main_arg13) :=
  carry (valid W) 0 18 (by decide) rfl rfl
theorem keep_main_arg14_0_18 : R18 W (Proc.devRef .tc main_arg14) = R0 W (Proc.devRef .tc main_arg14) :=
  carry (valid W) 0 18 (by decide) rfl rfl
theorem keep_main_v1_1_19 : R19 W (Proc.devRef .tc main_v1) = R1 W (Proc.devRef .tc main_v1) :=
  carry (valid W) 1 18 (by decide) rfl rfl
theorem keep_main_v118_13_19 : R19 W (Proc.devRef .tc main_v118) = R13 W (Proc.devRef .tc main_v118) :=
  carry (valid W) 13 6 (by decide) rfl rfl
theorem keep_main_arg4_0_19 : R19 W (Proc.devRef .tc main_arg4) = R0 W (Proc.devRef .tc main_arg4) :=
  carry (valid W) 0 19 (by decide) rfl rfl
theorem keep_main_arg5_0_19 : R19 W (Proc.devRef .tc main_arg5) = R0 W (Proc.devRef .tc main_arg5) :=
  carry (valid W) 0 19 (by decide) rfl rfl
theorem keep_main_v3_1_20 : R20 W (Proc.devRef .tc main_v3) = R1 W (Proc.devRef .tc main_v3) :=
  carry (valid W) 1 19 (by decide) rfl rfl
theorem keep_main_v11_1_20 : R20 W (Proc.devRef .tc main_v11) = R1 W (Proc.devRef .tc main_v11) :=
  carry (valid W) 1 19 (by decide) rfl rfl
theorem keep_main_arg3_0_21 : R21 W (Proc.devRef .tc main_arg3) = R0 W (Proc.devRef .tc main_arg3) :=
  carry (valid W) 0 21 (by decide) rfl rfl
theorem keep_main_v118_13_21 : R21 W (Proc.devRef .tc main_v118) = R13 W (Proc.devRef .tc main_v118) :=
  carry (valid W) 13 8 (by decide) rfl rfl
theorem keep_main_arg6_0_21 : R21 W (Proc.devRef .tc main_arg6) = R0 W (Proc.devRef .tc main_arg6) :=
  carry (valid W) 0 21 (by decide) rfl rfl
theorem keep_main_v167_19_22 : R22 W (Proc.devRef .tc main_v167) = R19 W (Proc.devRef .tc main_v167) :=
  carry (valid W) 19 3 (by decide) rfl rfl
theorem keep_main_arg0_0_22 : R22 W (Proc.devRef .tc main_arg0) = R0 W (Proc.devRef .tc main_arg0) :=
  carry (valid W) 0 22 (by decide) rfl rfl
theorem keep_main_arg1_0_22 : R22 W (Proc.devRef .tc main_arg1) = R0 W (Proc.devRef .tc main_arg1) :=
  carry (valid W) 0 22 (by decide) rfl rfl
theorem keep_main_arg2_0_22 : R22 W (Proc.devRef .tc main_arg2) = R0 W (Proc.devRef .tc main_arg2) :=
  carry (valid W) 0 22 (by decide) rfl rfl
theorem keep_main_arg3_0_22 : R22 W (Proc.devRef .tc main_arg3) = R0 W (Proc.devRef .tc main_arg3) :=
  carry (valid W) 0 22 (by decide) rfl rfl
theorem keep_main_arg4_0_22 : R22 W (Proc.devRef .tc main_arg4) = R0 W (Proc.devRef .tc main_arg4) :=
  carry (valid W) 0 22 (by decide) rfl rfl
theorem keep_main_arg5_0_22 : R22 W (Proc.devRef .tc main_arg5) = R0 W (Proc.devRef .tc main_arg5) :=
  carry (valid W) 0 22 (by decide) rfl rfl
theorem keep_main_arg6_0_22 : R22 W (Proc.devRef .tc main_arg6) = R0 W (Proc.devRef .tc main_arg6) :=
  carry (valid W) 0 22 (by decide) rfl rfl
theorem keep_main_arg7_0_22 : R22 W (Proc.devRef .tc main_arg7) = R0 W (Proc.devRef .tc main_arg7) :=
  carry (valid W) 0 22 (by decide) rfl rfl
theorem keep_main_arg8_0_22 : R22 W (Proc.devRef .tc main_arg8) = R0 W (Proc.devRef .tc main_arg8) :=
  carry (valid W) 0 22 (by decide) rfl rfl
theorem keep_main_arg9_0_22 : R22 W (Proc.devRef .tc main_arg9) = R0 W (Proc.devRef .tc main_arg9) :=
  carry (valid W) 0 22 (by decide) rfl rfl
theorem keep_main_arg10_0_22 : R22 W (Proc.devRef .tc main_arg10) = R0 W (Proc.devRef .tc main_arg10) :=
  carry (valid W) 0 22 (by decide) rfl rfl
theorem keep_main_arg11_0_22 : R22 W (Proc.devRef .tc main_arg11) = R0 W (Proc.devRef .tc main_arg11) :=
  carry (valid W) 0 22 (by decide) rfl rfl
theorem keep_main_arg12_0_22 : R22 W (Proc.devRef .tc main_arg12) = R0 W (Proc.devRef .tc main_arg12) :=
  carry (valid W) 0 22 (by decide) rfl rfl
theorem keep_main_arg13_0_22 : R22 W (Proc.devRef .tc main_arg13) = R0 W (Proc.devRef .tc main_arg13) :=
  carry (valid W) 0 22 (by decide) rfl rfl
theorem keep_main_arg14_0_22 : R22 W (Proc.devRef .tc main_arg14) = R0 W (Proc.devRef .tc main_arg14) :=
  carry (valid W) 0 22 (by decide) rfl rfl

end Cert.ReferenceIdeal.RRun

end
-- ==== Proof.RDefs.lean ====
import proofs.«404994_j27599459844666_2_alg».proof.Proof.Gen.ReferenceIdeal

noncomputable section

namespace Cert.ReferenceIdeal.RV

open Cert.ReferenceIdeal Cert.ReferenceIdeal.Gen Idealize.ShloMosaic Idealize.ShloMosaic.TcCoe

variable {F : FTy → Type} [FloatOps F]

def srcR (a1 : IVec S2x800000 32) : IVec S800000 32 :=
  shapeCast S800000 (extractStridedSlice S1x800000 ![0, 0] a1 slices_S2x800000_S1x800000_0_0) shapeCasts_S1x800000_S800000

def dstR (a1 : IVec S2x800000 32) : IVec S800000 32 :=
  shapeCast S800000 (extractStridedSlice S1x800000 ![1, 0] a1 slices_S2x800000_S1x800000_1_0) shapeCasts_S1x800000_S800000

def degR (a1 : IVec S2x800000 32) : FVec F S50000 .f32 :=
  Host.scatterAdd scatter_S50000_S800000x1_S800000_n_0_0_1 (broadcastInDim S50000 ![] bcast_S_S50000 (constant S_ .f32 0x00000000#32))
    (broadcastInDim S800000x1 ![0] bcast_S800000_S800000x1_0 (dstR a1)) (broadcastInDim S800000 ![] bcast_S_S800000 (constant S_ .f32 0x3F800000#32))

def invR (a1 : IVec S2x800000 32) : FVec F S50000x1 .f32 :=
  broadcastInDim S50000x1 ![0] bcast_S50000_S50000x1_0
    (Host.divf (broadcastInDim S50000 ![] bcast_S_S50000 (constant S_ .f32 0x3F800000#32))
      (maximumf (broadcastInDim S50000 ![] bcast_S_S50000 (constant S_ .f32 0x3F800000#32)) (degR a1)))

def wrapR (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

def colR (idx : IVec S800000 32) : IVec S800000x1 32 :=
  broadcastInDim S800000x1 ![0] bcast_S800000_S800000x1_0 (wrapR idx)

def gathR (x : FVec F S50000x64 .f32) (idx : IVec S800000 32) : FVec F S800000x64 .f32 :=
  Host.gather gather_S50000x64_S800000x1_S800000x64_1_0_n_n_0_1_164 x (colR idx)

def segR (a1 : IVec S2x800000 32) (msg : FVec F S800000x64 .f32) : FVec F S50000x64 .f32 :=
  mulf (Host.scatterAdd scatter_S50000x64_S800000x1_S800000x64_1_0_0_1
      (broadcastInDim S50000x64 ![] bcast_S_S50000x64 (constant S_ .f32 0x00000000#32))
      (broadcastInDim S800000x1 ![0] bcast_S800000_S800000x1_0 (dstR a1)) msg)
    (broadcastInDim S50000x64 ![0, 1] bcast_S50000x1_S50000x64_0_1 (invR a1))

end Cert.ReferenceIdeal.RV

end
-- ==== Proof.RefLemmas.lean ====
import proofs.«404994_j27599459844666_2_alg».proof.Proof.Gen.ReferenceIdeal
import proofs.«404994_j27599459844666_2_alg».proof.Proof.Spec
import proofs.«404994_j27599459844666_2_alg».proof.Proof.RDefs
import proofs.«404994_j27599459844666_2_alg».proof.Proof.Net
import Idealize.ShloMosaic.PureOps.Ideal.Laws
import Idealize.ShloMosaic.Lib.Pipeline.Value
import Idealize.ShloMosaic.Lib.ValueIdx

noncomputable section

namespace Cert.ReferenceIdeal.RV

open Cert.ReferenceIdeal Cert.ReferenceIdeal.Gen Idealize.ShloMosaic Idealize.ShloMosaic.TcCoe Idealize.ShloMosaic.ValueIdx

theorem dotN_lhs0 (i : S50000x64.Idx) (q : dot_S50000x64_S64x64_S50000x64_1_0_0_1_n_n.contr.Idx) : (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dotN_lhs1 (i : S50000x64.Idx) (q : dot_S50000x64_S64x64_S50000x64_1_0_0_1_n_n.contr.Idx) : (dot_S50000x64_S64x64_S50000x64_1_0_0_1_n_n.lhsIdx i q 1).val = (q ⟨0, by decide⟩).val :=
  dot_S50000x64_S64x64_S50000x64_1_0_0_1_n_n.lhsIdx_val_of_single rfl i q
theorem dotN_rhs0 (i : S50000x64.Idx) (q : dot_S50000x64_S64x64_S50000x64_1_0_0_1_n_n.contr.Idx) : (dot_S50000x64_S64x64_S50000x64_1_0_0_1_n_n.rhsIdx i q 0).val = (q ⟨0, by decide⟩).val :=
  dot_S50000x64_S64x64_S50000x64_1_0_0_1_n_n.rhsIdx_val_of_single rfl i q
theorem dotN_rhs1 (i : S50000x64.Idx) (q : dot_S50000x64_S64x64_S50000x64_1_0_0_1_n_n.contr.Idx) : (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

theorem dotN_eq (x : FVec Ideal S50000x64 .f32) (w : FVec Ideal S64x64 .f32) :
    Host.dotGeneral dot_S50000x64_S64x64_S50000x64_1_0_0_1_n_n none x w = Gnn.mm x w := by
  funext i
  obtain ⟨p, q, rfl⟩ : ∃ (p : Fin 50000) (q : Fin 64), i = ix2 p q := ⟨i 0, i 1, eq_ix2 i⟩
  rw [Gnn.mm_apply]
  simp only [Host.dotGeneral]
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 p q) ((contrEquiv1 dot_S50000x64_S64x64_S50000x64_1_0_0_1_n_n 64 rfl rfl).symm k) = ix2 p k := funext fun a => Fin.ext (by
    match a with
    | ⟨0, _⟩ => exact dotN_lhs0 _ _
    | ⟨1, _⟩ => exact (dotN_lhs1 _ _).trans hk)
  have er : dot_S50000x64_S64x64_S50000x64_1_0_0_1_n_n.rhsIdx (ix2 p q) ((contrEquiv1 dot_S50000x64_S64x64_S50000x64_1_0_0_1_n_n 64 rfl rfl).symm k) = ix2 k q := funext fun a => Fin.ext (by
    match a with
    | ⟨0, _⟩ => exact (dotN_rhs0 _ _).trans hk
    | ⟨1, _⟩ => exact dotN_rhs1 _ _)
  rw [el, er]

theorem dotE_lhs0 (i : S800000x64.Idx) (q : dot_S800000x64_S64x64_S800000x64_1_0_0_1_n_n.contr.Idx) : (dot_S800000x64_S64x64_S800000x64_1_0_0_1_n_n.lhsIdx i q 0).val = (i 0).val := by
  unfold DotDims.lhsIdx
  rw [dif_neg (show ¬(0 : Fin S800000x64.rank) ∈ dot_S800000x64_S64x64_S800000x64_1_0_0_1_n_n.lhsBatch by decide), dif_pos (show (0 : Fin S800000x64.rank) ∈ dot_S800000x64_S64x64_S800000x64_1_0_0_1_n_n.lhsNonContracting by decide)]
  rfl
theorem dotE_lhs1 (i : S800000x64.Idx) (q : dot_S800000x64_S64x64_S800000x64_1_0_0_1_n_n.contr.Idx) : (dot_S800000x64_S64x64_S800000x64_1_0_0_1_n_n.lhsIdx i q 1).val = (q ⟨0, by decide⟩).val :=
  dot_S800000x64_S64x64_S800000x64_1_0_0_1_n_n.lhsIdx_val_of_single rfl i q
theorem dotE_rhs0 (i : S800000x64.Idx) (q : dot_S800000x64_S64x64_S800000x64_1_0_0_1_n_n.contr.Idx) : (dot_S800000x64_S64x64_S800000x64_1_0_0_1_n_n.rhsIdx i q 0).val = (q ⟨0, by decide⟩).val :=
  dot_S800000x64_S64x64_S800000x64_1_0_0_1_n_n.rhsIdx_val_of_single rfl i q
theorem dotE_rhs1 (i : S800000x64.Idx) (q : dot_S800000x64_S64x64_S800000x64_1_0_0_1_n_n.contr.Idx) : (dot_S800000x64_S64x64_S800000x64_1_0_0_1_n_n.rhsIdx i q 1).val = (i 1).val := by
  unfold DotDims.rhsIdx
  rw [dif_neg (show ¬(1 : Fin S64x64.rank) ∈ dot_S800000x64_S64x64_S800000x64_1_0_0_1_n_n.rhsBatch by decide), dif_pos (show (1 : Fin S64x64.rank) ∈ dot_S800000x64_S64x64_S800000x64_1_0_0_1_n_n.rhsNonContracting by decide)]
  rfl

theorem dotE_eq (x : FVec Ideal S800000x64 .f32) (w : FVec Ideal S64x64 .f32) :
    Host.dotGeneral dot_S800000x64_S64x64_S800000x64_1_0_0_1_n_n none x w = Gnn.mm x w := by
  funext i
  obtain ⟨p, q, rfl⟩ : ∃ (p : Fin 800000) (q : Fin 64), i = ix2 p q := ⟨i 0, i 1, eq_ix2 i⟩
  rw [Gnn.mm_apply]
  simp only [Host.dotGeneral]
  rw [Ideal.dotGeneral_apply, ← Equiv.sum_comp (contrEquiv1 dot_S800000x64_S64x64_S800000x64_1_0_0_1_n_n 64 rfl rfl).symm]
  refine Finset.sum_congr rfl fun k _ => ?_
  have hk := contrEquiv1_symm_val dot_S800000x64_S64x64_S800000x64_1_0_0_1_n_n 64 rfl rfl k
  have el : dot_S800000x64_S64x64_S800000x64_1_0_0_1_n_n.lhsIdx (ix2 p q) ((contrEquiv1 dot_S800000x64_S64x64_S800000x64_1_0_0_1_n_n 64 rfl rfl).symm k) = ix2 p k := funext fun a => Fin.ext (by
    match a with
    | ⟨0, _⟩ => exact dotE_lhs0 _ _
    | ⟨1, _⟩ => exact (dotE_lhs1 _ _).trans hk)
  have er : dot_S800000x64_S64x64_S800000x64_1_0_0_1_n_n.rhsIdx (ix2 p q) ((contrEquiv1 dot_S800000x64_S64x64_S800000x64_1_0_0_1_n_n 64 rfl rfl).symm k) = ix2 k q := funext fun a => Fin.ext (by
    match a with
    | ⟨0, _⟩ => exact (dotE_rhs0 _ _).trans hk
    | ⟨1, _⟩ => exact dotE_rhs1 _ _)
  rw [el, er]

theorem wSlice0_eq (W : FVec Ideal S3x64x64 .f32) :
    shapeCast S64x64 (extractStridedSlice S1x64x64 ![0, 0, 0] W slices_S3x64x64_S1x64x64_0_0_0) shapeCasts_S1x64x64_S64x64 = Gnn.wSlice W 0 := by
  funext i
  obtain ⟨p, q, rfl⟩ : ∃ (p : Fin 64) (q : Fin 64), i = ix2 p q := ⟨i 0, i 1, eq_ix2 i⟩
  rw [Gnn.wSlice_apply,
    shapeCast_apply _ shapeCasts_S1x64x64_S64x64 (ix2 p q) (ix3 (0 : Fin 1) p q)
      (by rewrite [Shape.rowMajor_val_three, Shape.rowMajor_val_two]
          show (0 * 64 + p.val) * 64 + q.val = p.val * 64 + q.val
          omega),
    extractStridedSlice_apply ![0, 0, 0] W slices_S3x64x64_S1x64x64_0_0_0 (ix3 (0 : Fin 1) p q) (ix3 (0 : Fin 3) p q) (fun a => match a with
      | ⟨0, _⟩ => by show 0 = 0 + 0; omega
      | ⟨1, _⟩ => by show p.val = 0 + p.val; omega
      | ⟨2, _⟩ => by show q.val = 0 + q.val; omega)]

theorem wSlice1_eq (W : FVec Ideal S3x64x64 .f32) :
    shapeCast S64x64 (extractStridedSlice S1x64x64 ![1, 0, 0] W slices_S3x64x64_S1x64x64_1_0_0) shapeCasts_S1x64x64_S64x64 = Gnn.wSlice W 1 := by
  funext i
  obtain ⟨p, q, rfl⟩ : ∃ (p : Fin 64) (q : Fin 64), i = ix2 p q := ⟨i 0, i 1, eq_ix2 i⟩
  rw [Gnn.wSlice_apply,
    shapeCast_apply _ shapeCasts_S1x64x64_S64x64 (ix2 p q) (ix3 (0 : Fin 1) p q)
      (by rewrite [Shape.rowMajor_val_three, Shape.rowMajor_val_two]
          show (0 * 64 + p.val) * 64 + q.val = p.val * 64 + q.val
          omega),
    extractStridedSlice_apply ![1, 0, 0] W slices_S3x64x64_S1x64x64_1_0_0 (ix3 (0 : Fin 1) p q) (ix3 (1 : Fin 3) p q) (fun a => match a with
      | ⟨0, _⟩ => by show 1 = 1 + 0; omega
      | ⟨1, _⟩ => by show p.val = 0 + p.val; omega
      | ⟨2, _⟩ => by show q.val = 0 + q.val; omega)]

theorem wSlice2_eq (W : FVec Ideal S3x64x64 .f32) :
    shapeCast S64x64 (extractStridedSlice S1x64x64 ![2, 0, 0] W slices_S3x64x64_S1x64x64_2_0_0) shapeCasts_S1x64x64_S64x64 = Gnn.wSlice W 2 := by
  funext i
  obtain ⟨p, q, rfl⟩ : ∃ (p : Fin 64) (q : Fin 64), i = ix2 p q := ⟨i 0, i 1, eq_ix2 i⟩
  rw [Gnn.wSlice_apply,
    shapeCast_apply _ shapeCasts_S1x64x64_S64x64 (ix2 p q) (ix3 (0 : Fin 1) p q)
      (by rewrite [Shape.rowMajor_val_three, Shape.rowMajor_val_two]
          show (0 * 64 + p.val) * 64 + q.val = p.val * 64 + q.val
          omega),
    extractStridedSlice_apply ![2, 0, 0] W slices_S3x64x64_S1x64x64_2_0_0 (ix3 (0 : Fin 1) p q) (ix3 (2 : Fin 3) p q) (fun a => match a with
      | ⟨0, _⟩ => by show 2 = 2 + 0; omega
      | ⟨1, _⟩ => by show p.val = 0 + p.val; omega
      | ⟨2, _⟩ => by show q.val = 0 + q.val; omega)]

theorem bRow0_eq (b : FVec Ideal S3x64 .f32) :
    broadcastInDim S1x64 ![1] bcast_S64_S1x64_1
      (shapeCast S64 (extractStridedSlice S1x64 ![0, 0] b slices_S3x64_S1x64_0_0) shapeCasts_S1x64_S64) = Gnn.bRow b 0 := by
  funext i
  obtain ⟨p, q, rfl⟩ : ∃ (p : Fin 1) (q : Fin 64), i = ix2 p q := ⟨i 0, i 1, eq_ix2 i⟩
  rw [Gnn.bRow_apply,
    broadcastInDim_apply ![1] bcast_S64_S1x64_1 _ (ix2 p q) (ix1 q) (fun a => match a with
      | ⟨0, _⟩ => by show q.val = if (64 : Nat) = 1 then 0 else q.val; rw [if_neg (by decide)]),
    shapeCast_apply _ shapeCasts_S1x64_S64 (ix1 q) (ix2 (0 : Fin 1) q)
      (by rewrite [Shape.rowMajor_val_two, Shape.rowMajor_val_one]
          show 0 * 64 + q.val = q.val
          omega),
    extractStridedSlice_apply ![0, 0] b slices_S3x64_S1x64_0_0 (ix2 (0 : Fin 1) q) (ix2 (0 : Fin 3) q) (fun a => match a with
      | ⟨0, _⟩ => by show 0 = 0 + 0; omega
      | ⟨1, _⟩ => by show q.val = 0 + q.val; omega)]

theorem bRow1_eq (b : FVec Ideal S3x64 .f32) :
    broadcastInDim S1x64 ![1] bcast_S64_S1x64_1
      (shapeCast S64 (extractStridedSlice S1x64 ![1, 0] b slices_S3x64_S1x64_1_0) shapeCasts_S1x64_S64) = Gnn.bRow b 1 := by
  funext i
  obtain ⟨p, q, rfl⟩ : ∃ (p : Fin 1) (q : Fin 64), i = ix2 p q := ⟨i 0, i 1, eq_ix2 i⟩
  rw [Gnn.bRow_apply,
    broadcastInDim_apply ![1] bcast_S64_S1x64_1 _ (ix2 p q) (ix1 q) (fun a => match a with
      | ⟨0, _⟩ => by show q.val = if (64 : Nat) = 1 then 0 else q.val; rw [if_neg (by decide)]),
    shapeCast_apply _ shapeCasts_S1x64_S64 (ix1 q) (ix2 (0 : Fin 1) q)
      (by rewrite [Shape.rowMajor_val_two, Shape.rowMajor_val_one]
          show 0 * 64 + q.val = q.val
          omega),
    extractStridedSlice_apply ![1, 0] b slices_S3x64_S1x64_1_0 (ix2 (0 : Fin 1) q) (ix2 (1 : Fin 3) q) (fun a => match a with
      | ⟨0, _⟩ => by show 1 = 1 + 0; omega
      | ⟨1, _⟩ => by show q.val = 0 + q.val; omega)]

theorem bRow2_eq (b : FVec Ideal S3x64 .f32) :
    broadcastInDim S1x64 ![1] bcast_S64_S1x64_1
      (shapeCast S64 (extractStridedSlice S1x64 ![2, 0] b slices_S3x64_S1x64_2_0) shapeCasts_S1x64_S64) = Gnn.bRow b 2 := by
  funext i
  obtain ⟨p, q, rfl⟩ : ∃ (p : Fin 1) (q : Fin 64), i = ix2 p q := ⟨i 0, i 1, eq_ix2 i⟩
  rw [Gnn.bRow_apply,
    broadcastInDim_apply ![1] bcast_S64_S1x64_1 _ (ix2 p q) (ix1 q) (fun a => match a with
      | ⟨0, _⟩ => by show q.val = if (64 : Nat) = 1 then 0 else q.val; rw [if_neg (by decide)]),
    shapeCast_apply _ shapeCasts_S1x64_S64 (ix1 q) (ix2 (0 : Fin 1) q)
      (by rewrite [Shape.rowMajor_val_two, Shape.rowMajor_val_one]
          show 0 * 64 + q.val = q.val
          omega),
    extractStridedSlice_apply ![2, 0] b slices_S3x64_S1x64_2_0 (ix2 (0 : Fin 1) q) (ix2 (2 : Fin 3) q) (fun a => match a with
      | ⟨0, _⟩ => by show 2 = 2 + 0; omega
      | ⟨1, _⟩ => by show q.val = 0 + q.val; omega)]

theorem addRowN_eq (a : FVec Ideal S50000x64 .f32) (r : FVec Ideal S1x64 .f32) :
    addf a (broadcastInDim S50000x64 ![0, 1] bcast_S1x64_S50000x64_0_1 r) = Gnn.addRow a r := by
  funext i
  obtain ⟨p, q, rfl⟩ : ∃ (p : Fin 50000) (q : Fin 64), i = ix2 p q := ⟨i 0, i 1, eq_ix2 i⟩
  rw [Gnn.addRow_apply, addf_apply, broadcastInDim_apply ![0, 1] bcast_S1x64_S50000x64_0_1 r (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])]

theorem reluN_eq (a : FVec Ideal S50000x64 .f32) :
    maximumf a (broadcastInDim S50000x64 ![] bcast_S_S50000x64 (constant S_ .f32 0x00000000#32)) = Gnn.relu a := by
  funext i
  rw [Gnn.relu_apply, maximumf_apply, broadcastInDim_apply ![] bcast_S_S50000x64 _ i ix0 (fun a => a.elim0), constant_apply]

theorem addN_eq (a b : FVec Ideal S50000x64 .f32) : addf a b = Gnn.add a b := rfl

theorem addRowE_eq (a : FVec Ideal S800000x64 .f32) (r : FVec Ideal S1x64 .f32) :
    addf a (broadcastInDim S800000x64 ![0, 1] bcast_S1x64_S800000x64_0_1 r) = Gnn.addRow a r := by
  funext i
  obtain ⟨p, q, rfl⟩ : ∃ (p : Fin 800000) (q : Fin 64), i = ix2 p q := ⟨i 0, i 1, eq_ix2 i⟩
  rw [Gnn.addRow_apply, addf_apply, broadcastInDim_apply ![0, 1] bcast_S1x64_S800000x64_0_1 r (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])]

theorem reluE_eq (a : FVec Ideal S800000x64 .f32) :
    maximumf a (broadcastInDim S800000x64 ![] bcast_S_S800000x64 (constant S_ .f32 0x00000000#32)) = Gnn.relu a := by
  funext i
  rw [Gnn.relu_apply, maximumf_apply, broadcastInDim_apply ![] bcast_S_S800000x64 _ i ix0 (fun a => a.elim0), constant_apply]

theorem addE_eq (a b : FVec Ideal S800000x64 .f32) : addf a b = Gnn.add a b := rfl

def weightsAt (W : Valuation τ sig (Elt Ideal)) : Gnn.Weights where
  Wr := W (Proc.devRef .tc main_arg3)
  Wn := W (Proc.devRef .tc main_arg4)
  We := W (Proc.devRef .tc main_arg5)
  b := W (Proc.devRef .tc main_arg6)
  EWe := W (Proc.devRef .tc main_arg7)
  Ebe := W (Proc.devRef .tc main_arg8)
  EWs := W (Proc.devRef .tc main_arg9)
  Ebs := W (Proc.devRef .tc main_arg10)
  EWt := W (Proc.devRef .tc main_arg11)
  Ebt := W (Proc.devRef .tc main_arg12)
  EW1 := W (Proc.devRef .tc main_arg13)
  Eb1 := W (Proc.devRef .tc main_arg14)
abbrev gSAt (W : Valuation τ sig (Elt Ideal)) : Gnn.NArr → Gnn.EArr := fun x => gathR (F := Ideal) x (srcR (W (Proc.devRef .tc main_arg1)))
abbrev gDAt (W : Valuation τ sig (Elt Ideal)) : Gnn.NArr → Gnn.EArr := fun x => gathR (F := Ideal) x (dstR (W (Proc.devRef .tc main_arg1)))
abbrev sgAt (W : Valuation τ sig (Elt Ideal)) : Gnn.EArr → Gnn.NArr := fun a => segR (F := Ideal) (W (Proc.devRef .tc main_arg1)) a

end Cert.ReferenceIdeal.RV

end
-- ==== Proof.RefVal2.lean ====
import proofs.«404994_j27599459844666_2_alg».proof.Proof.RefCarry
import proofs.«404994_j27599459844666_2_alg».proof.Proof.RefLemmas
import proofs.«404994_j27599459844666_2_alg».proof.Proof.RDefs
import proofs.«404994_j27599459844666_2_alg».proof.Proof.Net

noncomputable section

namespace Cert.ReferenceIdeal.RV

open Cert.ReferenceIdeal Cert.ReferenceIdeal.Gen Idealize.ShloMosaic Idealize.ShloMosaic.TcCoe Idealize.SL.Sem Idealize.ShloMosaic.StableHlo Idealize.ShloMosaic.ValueIdx

variable (W : Valuation τ sig (Elt Ideal)) (X : Gnn.NArr) (E : Gnn.EArr)

theorem toBuf_self (r : Ref sig .tc) (h2 : r.space ≠ .host) (h3 : r.isScoped = false) (v : r.ty.Contents (Elt Ideal)) :
    (TRef.of (T := r.ty) r rfl h2 h3).toBuf v = v := rfl
theorem ofBuf_self (r : Ref sig .tc) (h2 : r.space ≠ .host) (h3 : r.isScoped = false) (v : r.ty.Contents (Elt Ideal)) :
    (TRef.of (T := r.ty) r rfl h2 h3).ofBuf v = v := rfl

set_option maxHeartbeats 4000000 in
theorem src_at : RRun.R1 W (Proc.devRef .tc main_v1) = srcR (W (Proc.devRef .tc main_arg1)) := by
  show StableHlo.after RRun.ops0 W (Proc.devRef .tc main_v1) = _
  dsimp only [RRun.ops0]
  after_results_simp
  rfl

set_option maxHeartbeats 4000000 in
theorem dst_at : RRun.R1 W (Proc.devRef .tc main_v3) = dstR (W (Proc.devRef .tc main_arg1)) := by
  show StableHlo.after RRun.ops0 W (Proc.devRef .tc main_v3) = _
  dsimp only [RRun.ops0]
  after_results_simp
  rfl

set_option maxHeartbeats 4000000 in
theorem inv_at : RRun.R1 W (Proc.devRef .tc main_v11) = invR (F := Ideal) (W (Proc.devRef .tc main_arg1)) := by
  show StableHlo.after RRun.ops0 W (Proc.devRef .tc main_v11) = _
  dsimp only [RRun.ops0]
  after_results_simp
  unfold invR degR dstR
  rw [toBuf_self main_v8, ofBuf_self main_call0_v1, toBuf_self main_call0_v1, ofBuf_self main_call0_v0,
    toBuf_self main_call0_v0, ofBuf_self main_cst_1, ofBuf_self main_v7, id_eq]
  rfl

set_option maxHeartbeats 4000000 in
theorem msg_of (V0 : Valuation τ sig (Elt Ideal)) (a1 : IVec S2x800000 32) (x : Gnn.NArr) (e : Gnn.EArr) (wn we : Gnn.Arr3)
    (h1 : V0 (Proc.devRef .tc main_v1) = srcR a1) (hx : V0 (Proc.devRef .tc main_v118) = x)
    (he : V0 (Proc.devRef .tc main_v167) = e) (h4 : V0 (Proc.devRef .tc main_arg4) = wn)
    (h5 : V0 (Proc.devRef .tc main_arg5) = we) :
    StableHlo.after RRun.ops19 V0 (Proc.devRef .tc main_v181)
      = Gnn.add (Gnn.mm (gathR (F := Ideal) x (srcR a1)) (Gnn.wSlice wn 2)) (Gnn.mm e (Gnn.wSlice we 2)) := by
  dsimp only [RRun.ops19]
  after_results_simp
  rw [h1, hx, he, h4, h5]
  show addf (Host.dotGeneral dot_S800000x64_S64x64_S800000x64_1_0_0_1_n_n none (gathR (F := Ideal) x (srcR a1))
        (shapeCast S64x64 (extractStridedSlice S1x64x64 ![2, 0, 0] wn slices_S3x64x64_S1x64x64_2_0_0) shapeCasts_S1x64x64_S64x64))
      (Host.dotGeneral dot_S800000x64_S64x64_S800000x64_1_0_0_1_n_n none e
        (shapeCast S64x64 (extractStridedSlice S1x64x64 ![2, 0, 0] we slices_S3x64x64_S1x64x64_2_0_0) shapeCasts_S1x64x64_S64x64)) = _
  rw [wSlice2_eq, wSlice2_eq, dotE_eq, dotE_eq]
  rfl

theorem seg_of (V0 : Valuation τ sig (Elt Ideal)) (a1 : IVec S2x800000 32) (msg : Gnn.EArr)
    (h3 : V0 (Proc.devRef .tc main_v3) = dstR a1) (h11 : V0 (Proc.devRef .tc main_v11) = invR (F := Ideal) a1)
    (hm : V0 (Proc.devRef .tc main_v181) = msg) :
    StableHlo.after RRun.ops20 V0 (Proc.devRef .tc main_v186) = segR (F := Ideal) a1 msg := by
  dsimp only [RRun.ops20]
  after_results
  rw [h3, h11, hm]
  rfl

set_option maxHeartbeats 4000000 in
theorem upd_of (V0 : Valuation τ sig (Elt Ideal)) (x agg : Gnn.NArr) (wr : Gnn.Arr3) (b : Gnn.Arr2 3 64)
    (hx : V0 (Proc.devRef .tc main_v118) = x) (ha : V0 (Proc.devRef .tc main_v186) = agg)
    (h3 : V0 (Proc.devRef .tc main_arg3) = wr) (h6 : V0 (Proc.devRef .tc main_arg6) = b) :
    StableHlo.after RRun.ops21 V0 (Proc.devRef .tc main_v195) = Gnn.nodeUpd x (Gnn.wSlice wr 2) agg (Gnn.bRow b 2) := by
  dsimp only [RRun.ops21]
  after_results_simp
  rw [hx, ha, h3, h6]
  show (addf (addf (Host.dotGeneral dot_S50000x64_S64x64_S50000x64_1_0_0_1_n_n none x
          (shapeCast S64x64 (extractStridedSlice S1x64x64 ![2, 0, 0] wr slices_S3x64x64_S1x64x64_2_0_0) shapeCasts_S1x64x64_S64x64)) agg)
      (broadcastInDim S50000x64 ![0, 1] bcast_S1x64_S50000x64_0_1
        (broadcastInDim S1x64 ![1] bcast_S64_S1x64_1
          (shapeCast S64 (extractStridedSlice (s := S3x64) S1x64 ![2, 0] b slices_S3x64_S1x64_2_0) shapeCasts_S1x64_S64))) :
      FVec Ideal S50000x64 .f32) = _
  rw [wSlice2_eq, bRow2_eq, dotN_eq, addRowN_eq]
  rfl

theorem r2_x (hX : RRun.R13 W (Proc.devRef .tc main_v118) = X) (hE : RRun.R19 W (Proc.devRef .tc main_v167) = E) :
    RRun.R22 W (Proc.devRef .tc main_v195) = Gnn.xPreR (gSAt W) (sgAt W) (weightsAt W) 2 X E := by
  have hmsg : StableHlo.after RRun.ops19 (RRun.R19 W) (Proc.devRef .tc main_v181) = Gnn.msgR (gSAt W) (weightsAt W) 2 X E :=
    msg_of (RRun.R19 W) (W (Proc.devRef .tc main_arg1)) X E (W (Proc.devRef .tc main_arg4)) (W (Proc.devRef .tc main_arg5))
      ((RRun.keep_main_v1_1_19 W).trans (src_at W)) ((RRun.keep_main_v118_13_19 W).trans hX) hE
      (RRun.keep_main_arg4_0_19 W) (RRun.keep_main_arg5_0_19 W)
  have hseg : StableHlo.after RRun.ops20 (RRun.R20 W) (Proc.devRef .tc main_v186)
      = sgAt W (Gnn.msgR (gSAt W) (weightsAt W) 2 X E) :=
    seg_of (RRun.R20 W) (W (Proc.devRef .tc main_arg1)) _ ((RRun.keep_main_v3_1_20 W).trans (dst_at W))
      ((RRun.keep_main_v11_1_20 W).trans (inv_at W)) hmsg
  show StableHlo.after RRun.ops21 (RRun.R21 W) (Proc.devRef .tc main_v195) = _
  exact upd_of (RRun.R21 W) X _ (W (Proc.devRef .tc main_arg3)) (W (Proc.devRef .tc main_arg6))
    ((RRun.keep_main_v118_13_21 W).trans hX) hseg (RRun.keep_main_arg3_0_21 W) (RRun.keep_main_arg6_0_21 W)

theorem r2_ea (hE : RRun.R19 W (Proc.devRef .tc main_v167) = E) : RRun.R22 W (Proc.devRef .tc main_v167) = E :=
  (RRun.keep_main_v167_19_22 W).trans hE

end Cert.ReferenceIdeal.RV

end
-- ==== Proof.RefVal0.lean ====
import proofs.«404994_j27599459844666_2_alg».proof.Proof.RefVal2

noncomputable section

namespace Cert.ReferenceIdeal.RV

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.RRun

variable (V W : Valuation τ sig (Elt Ideal)) (X : Gnn.NArr) (E : Gnn.EArr)

theorem l0_msg : StableHlo.after ops1 V (Proc.devRef .tc main_v25)
    = Gnn.add (Gnn.mm (gathR (F := Ideal) (V (Proc.devRef .tc main_arg0)) (V (Proc.devRef .tc main_v1))) (Gnn.wSlice (V (Proc.devRef .tc main_arg4)) 0))
        (Gnn.mm (V (Proc.devRef .tc main_arg2)) (Gnn.wSlice (V (Proc.devRef .tc main_arg5)) 0)) := by
  rw [← addE_eq, ← dotE_eq, ← dotE_eq, ← wSlice0_eq, ← wSlice0_eq]
  unfold gathR colR wrapR
  dsimp only [ops1]; after_results_simp
  rfl

theorem l0_seg (a1 : IVec S2x800000 32) (h3 : V (Proc.devRef .tc main_v3) = dstR a1) (h11 : V (Proc.devRef .tc main_v11) = invR (F := Ideal) a1) :
    StableHlo.after ops2 V (Proc.devRef .tc main_v30) = segR (F := Ideal) a1 (V (Proc.devRef .tc main_v25)) := by
  unfold segR
  rw [← h3, ← h11]
  dsimp only [ops2]; after_results_simp

theorem l0_upd : StableHlo.after ops3 V (Proc.devRef .tc main_v40)
    = Gnn.relu (Gnn.nodeUpd (V (Proc.devRef .tc main_arg0)) (Gnn.wSlice (V (Proc.devRef .tc main_arg3)) 0) (V (Proc.devRef .tc main_v30)) (Gnn.bRow (V (Proc.devRef .tc main_arg6)) 0)) := by
  rw [Gnn.nodeUpd, ← reluN_eq, ← addRowN_eq, ← bRow0_eq, ← addN_eq, ← dotN_eq, ← wSlice0_eq]
  dsimp only [ops3]; after_results_simp
  rw [toBuf_self main_v40, ofBuf_self main_v39, ofBuf_self main_call1_v0, toBuf_self main_call1_v0, ofBuf_self main_call1_cst,
    toBuf_self main_call1_cst]
  rfl

theorem l0_pe : StableHlo.after ops4 V (Proc.devRef .tc main_v48)
    = Gnn.proj (V (Proc.devRef .tc main_arg2)) (Gnn.wSlice (V (Proc.devRef .tc main_arg7)) 0) (Gnn.bRow (V (Proc.devRef .tc main_arg8)) 0) := by
  rw [Gnn.proj, ← addRowE_eq, ← bRow0_eq, ← dotE_eq, ← wSlice0_eq]
  dsimp only [ops4]; after_results_simp
  rfl

theorem l0_ps : StableHlo.after ops5 V (Proc.devRef .tc main_v56)
    = Gnn.proj (V (Proc.devRef .tc main_v40)) (Gnn.wSlice (V (Proc.devRef .tc main_arg9)) 0) (Gnn.bRow (V (Proc.devRef .tc main_arg10)) 0) := by
  rw [Gnn.proj, ← addRowN_eq, ← bRow0_eq, ← dotN_eq, ← wSlice0_eq]
  dsimp only [ops5]; after_results_simp
  rfl

theorem l0_as : StableHlo.after ops6 V (Proc.devRef .tc main_v64)
    = Gnn.add (V (Proc.devRef .tc main_v48)) (gathR (F := Ideal) (V (Proc.devRef .tc main_v56)) (V (Proc.devRef .tc main_v1))) := by
  rw [← addE_eq]
  unfold gathR colR wrapR
  dsimp only [ops6]; after_results_simp

theorem l0_pt : StableHlo.after ops7 V (Proc.devRef .tc main_v72)
    = Gnn.proj (V (Proc.devRef .tc main_v40)) (Gnn.wSlice (V (Proc.devRef .tc main_arg11)) 0) (Gnn.bRow (V (Proc.devRef .tc main_arg12)) 0) := by
  rw [Gnn.proj, ← addRowN_eq, ← bRow0_eq, ← dotN_eq, ← wSlice0_eq]
  dsimp only [ops7]; after_results_simp
  rfl

theorem l0_at : StableHlo.after ops8 V (Proc.devRef .tc main_v80)
    = Gnn.add (V (Proc.devRef .tc main_v64)) (gathR (F := Ideal) (V (Proc.devRef .tc main_v72)) (V (Proc.devRef .tc main_v3))) := by
  rw [← addE_eq]
  unfold gathR colR wrapR
  dsimp only [ops8]; after_results_simp

theorem l0_out : StableHlo.after ops9 V (Proc.devRef .tc main_v89)
    = Gnn.proj (Gnn.relu (V (Proc.devRef .tc main_v80))) (Gnn.wSlice (V (Proc.devRef .tc main_arg13)) 0) (Gnn.bRow (V (Proc.devRef .tc main_arg14)) 0) := by
  rw [Gnn.proj, ← addRowE_eq, ← bRow0_eq, ← dotE_eq, ← wSlice0_eq, ← reluE_eq]
  dsimp only [ops9]; after_results_simp
  rw [toBuf_self main_v81, ofBuf_self main_v80, ofBuf_self main_call2_v0, toBuf_self main_call2_v0, ofBuf_self main_call2_cst,
    toBuf_self main_call2_cst]
  rfl

abbrev x1Of : Gnn.NArr := Gnn.relu (Gnn.xPreR (gSAt W) (sgAt W) (weightsAt W) 0 X E)

variable (hX : W (Proc.devRef .tc main_arg0) = X) (hE : W (Proc.devRef .tc main_arg2) = E)
include hX hE

theorem r0_msg : R2 W (Proc.devRef .tc main_v25) = Gnn.msgR (gSAt W) (weightsAt W) 0 X E := by
  show StableHlo.after ops1 (R1 W) _ = _
  rw [l0_msg, keep_main_arg0_0_1, keep_main_arg4_0_1, keep_main_arg5_0_1, keep_main_arg2_0_1, src_at]
  dsimp only [R0]
  rw [hX, hE]
  rfl

theorem r0_seg : R3 W (Proc.devRef .tc main_v30) = sgAt W (Gnn.msgR (gSAt W) (weightsAt W) 0 X E) := by
  show StableHlo.after ops2 (R2 W) _ = _
  rw [l0_seg (R2 W) (W (Proc.devRef .tc main_arg1)) ((keep_main_v3_1_2 W).trans (dst_at W)) ((keep_main_v11_1_2 W).trans (inv_at W)),
    r0_msg W X E hX hE]

theorem r0_x : R4 W (Proc.devRef .tc main_v40) = Gnn.relu (Gnn.xPreR (gSAt W) (sgAt W) (weightsAt W) 0 X E) := by
  show StableHlo.after ops3 (R3 W) _ = _
  rw [l0_upd, keep_main_arg0_0_3, keep_main_arg3_0_3, keep_main_arg6_0_3, r0_seg W X E hX hE]
  dsimp only [R0]
  rw [hX]
  rfl

theorem r0_pe : R5 W (Proc.devRef .tc main_v48) = Gnn.proj E (Gnn.wSlice (weightsAt W).EWe 0) (Gnn.bRow (weightsAt W).Ebe 0) := by
  show StableHlo.after ops4 (R4 W) _ = _
  rw [l0_pe, keep_main_arg2_0_4, keep_main_arg7_0_4, keep_main_arg8_0_4]
  dsimp only [R0]
  rw [hE]
  rfl

theorem r0_ps : R6 W (Proc.devRef .tc main_v56)
    = Gnn.proj (x1Of W X E) (Gnn.wSlice (weightsAt W).EWs 0) (Gnn.bRow (weightsAt W).Ebs 0) := by
  show StableHlo.after ops5 (R5 W) _ = _
  rw [l0_ps, keep_main_v40_4_5, keep_main_arg9_0_5, keep_main_arg10_0_5, r0_x W X E hX hE]
  rfl

theorem r0_as : R7 W (Proc.devRef .tc main_v64)
    = Gnn.add (Gnn.proj E (Gnn.wSlice (weightsAt W).EWe 0) (Gnn.bRow (weightsAt W).Ebe 0))
        (gSAt W (Gnn.proj (x1Of W X E) (Gnn.wSlice (weightsAt W).EWs 0) (Gnn.bRow (weightsAt W).Ebs 0))) := by
  show StableHlo.after ops6 (R6 W) _ = _
  rw [l0_as, keep_main_v48_5_6, keep_main_v1_1_6, src_at, r0_pe W X E hX hE, r0_ps W X E hX hE]

theorem r0_pt : R8 W (Proc.devRef .tc main_v72)
    = Gnn.proj (x1Of W X E) (Gnn.wSlice (weightsAt W).EWt 0) (Gnn.bRow (weightsAt W).Ebt 0) := by
  show StableHlo.after ops7 (R7 W) _ = _
  rw [l0_pt, keep_main_v40_4_7, keep_main_arg11_0_7, keep_main_arg12_0_7, r0_x W X E hX hE]
  rfl

theorem r0_at : R9 W (Proc.devRef .tc main_v80)
    = Gnn.add (Gnn.add (Gnn.proj E (Gnn.wSlice (weightsAt W).EWe 0) (Gnn.bRow (weightsAt W).Ebe 0))
          (gSAt W (Gnn.proj (x1Of W X E) (Gnn.wSlice (weightsAt W).EWs 0) (Gnn.bRow (weightsAt W).Ebs 0))))
        (gDAt W (Gnn.proj (x1Of W X E) (Gnn.wSlice (weightsAt W).EWt 0) (Gnn.bRow (weightsAt W).Ebt 0))) := by
  show StableHlo.after ops8 (R8 W) _ = _
  rw [l0_at, keep_main_v64_7_8, keep_main_v3_1_8, dst_at, r0_as W X E hX hE, r0_pt W X E hX hE]

theorem r0_ea : R10 W (Proc.devRef .tc main_v89)
    = Gnn.eaNextR (gSAt W) (gDAt W) (weightsAt W) 0 (Gnn.relu (Gnn.xPreR (gSAt W) (sgAt W) (weightsAt W) 0 X E)) E := by
  show StableHlo.after ops9 (R9 W) _ = _
  rw [l0_out, keep_main_arg13_0_9, keep_main_arg14_0_9, r0_at W X E hX hE]
  rfl

end Cert.ReferenceIdeal.RV

end
-- ==== Proof.RefVal1.lean ====
import proofs.«404994_j27599459844666_2_alg».proof.Proof.RefVal2

noncomputable section

namespace Cert.ReferenceIdeal.RV

open Cert.ReferenceIdeal Cert.ReferenceIdeal.Gen Idealize.ShloMosaic Idealize.ShloMosaic.TcCoe Idealize.SL.Sem Idealize.ShloMosaic.StableHlo Idealize.ShloMosaic.ValueIdx

variable (W : Valuation τ sig (Elt Ideal)) (X : Gnn.NArr) (E : Gnn.EArr)

set_option maxHeartbeats 4000000 in
theorem msg1_of (V0 : Valuation τ sig (Elt Ideal)) (a1 : IVec S2x800000 32) (x : Gnn.NArr) (e : Gnn.EArr) (wn we : Gnn.Arr3)
    (h1 : V0 (Proc.devRef .tc main_v1) = srcR a1) (hx : V0 (Proc.devRef .tc main_v40) = x)
    (he : V0 (Proc.devRef .tc main_v89) = e) (h4 : V0 (Proc.devRef .tc main_arg4) = wn)
    (h5 : V0 (Proc.devRef .tc main_arg5) = we) :
    StableHlo.after RRun.ops10 V0 (Proc.devRef .tc main_v103)
      = Gnn.add (Gnn.mm (gathR (F := Ideal) x (srcR a1)) (Gnn.wSlice wn 1)) (Gnn.mm e (Gnn.wSlice we 1)) := by
  dsimp only [RRun.ops10]
  after_results_simp
  rw [h1, hx, he, h4, h5]
  show addf (Host.dotGeneral dot_S800000x64_S64x64_S800000x64_1_0_0_1_n_n none (gathR (F := Ideal) x (srcR a1))
        (shapeCast S64x64 (extractStridedSlice S1x64x64 ![1, 0, 0] wn slices_S3x64x64_S1x64x64_1_0_0) shapeCasts_S1x64x64_S64x64))
      (Host.dotGeneral dot_S800000x64_S64x64_S800000x64_1_0_0_1_n_n none e
        (shapeCast S64x64 (extractStridedSlice S1x64x64 ![1, 0, 0] we slices_S3x64x64_S1x64x64_1_0_0) shapeCasts_S1x64x64_S64x64)) = _
  rw [wSlice1_eq, wSlice1_eq, dotE_eq, dotE_eq]
  rfl

theorem seg1_of (V0 : Valuation τ sig (Elt Ideal)) (a1 : IVec S2x800000 32) (msg : Gnn.EArr)
    (h3 : V0 (Proc.devRef .tc main_v3) = dstR a1) (h11 : V0 (Proc.devRef .tc main_v11) = invR (F := Ideal) a1)
    (hm : V0 (Proc.devRef .tc main_v103) = msg) :
    StableHlo.after RRun.ops11 V0 (Proc.devRef .tc main_v108) = segR (F := Ideal) a1 msg := by
  dsimp only [RRun.ops11]
  after_results
  rw [h3, h11, hm]
  rfl

set_option maxHeartbeats 4000000 in
theorem act1_of (V0 : Valuation τ sig (Elt Ideal)) (x agg : Gnn.NArr) (wr : Gnn.Arr3) (b : Gnn.Arr2 3 64)
    (hx : V0 (Proc.devRef .tc main_v40) = x) (ha : V0 (Proc.devRef .tc main_v108) = agg)
    (h3 : V0 (Proc.devRef .tc main_arg3) = wr) (h6 : V0 (Proc.devRef .tc main_arg6) = b) :
    StableHlo.after RRun.ops12 V0 (Proc.devRef .tc main_v118)
      = Gnn.relu (Gnn.nodeUpd x (Gnn.wSlice wr 1) agg (Gnn.bRow b 1)) := by
  dsimp only [RRun.ops12]
  after_results_simp
  rw [hx, ha, h3, h6]
  rw [toBuf_self main_v118, ofBuf_self main_v117, ofBuf_self main_call3_v0, toBuf_self main_call3_v0,
    ofBuf_self main_call3_cst, toBuf_self main_call3_cst]
  show (maximumf (addf (addf (Host.dotGeneral dot_S50000x64_S64x64_S50000x64_1_0_0_1_n_n none x
          (shapeCast S64x64 (extractStridedSlice S1x64x64 ![1, 0, 0] wr slices_S3x64x64_S1x64x64_1_0_0) shapeCasts_S1x64x64_S64x64)) agg)
      (broadcastInDim S50000x64 ![0, 1] bcast_S1x64_S50000x64_0_1
        (broadcastInDim S1x64 ![1] bcast_S64_S1x64_1
          (shapeCast S64 (extractStridedSlice (s := S3x64) S1x64 ![1, 0] b slices_S3x64_S1x64_1_0) shapeCasts_S1x64_S64))))
      (broadcastInDim S50000x64 ![] bcast_S_S50000x64 (constant S_ .f32 0x00000000#32)) : FVec Ideal S50000x64 .f32) = _
  rw [wSlice1_eq, bRow1_eq, dotN_eq, addRowN_eq, reluN_eq]
  rfl

set_option maxHeartbeats 4000000 in
theorem edge1_of (V0 : Valuation τ sig (Elt Ideal)) (e : Gnn.EArr) (w : Gnn.Arr3) (b : Gnn.Arr2 3 64)
    (he : V0 (Proc.devRef .tc main_v89) = e) (h7 : V0 (Proc.devRef .tc main_arg7) = w) (h8 : V0 (Proc.devRef .tc main_arg8) = b) :
    StableHlo.after RRun.ops13 V0 (Proc.devRef .tc main_v126) = Gnn.proj e (Gnn.wSlice w 1) (Gnn.bRow b 1) := by
  dsimp only [RRun.ops13]
  after_results_simp
  rw [he, h7, h8]
  show (addf (Host.dotGeneral dot_S800000x64_S64x64_S800000x64_1_0_0_1_n_n none e
          (shapeCast S64x64 (extractStridedSlice S1x64x64 ![1, 0, 0] w slices_S3x64x64_S1x64x64_1_0_0) shapeCasts_S1x64x64_S64x64))
      (broadcastInDim S800000x64 ![0, 1] bcast_S1x64_S800000x64_0_1
        (broadcastInDim S1x64 ![1] bcast_S64_S1x64_1
          (shapeCast S64 (extractStridedSlice (s := S3x64) S1x64 ![1, 0] b slices_S3x64_S1x64_1_0) shapeCasts_S1x64_S64))) : FVec Ideal S800000x64 .f32) = _
  rw [wSlice1_eq, bRow1_eq, dotE_eq, addRowE_eq]
  rfl

set_option maxHeartbeats 4000000 in
theorem projS1_of (V0 : Valuation τ sig (Elt Ideal)) (x : Gnn.NArr) (w : Gnn.Arr3) (b : Gnn.Arr2 3 64)
    (hx : V0 (Proc.devRef .tc main_v118) = x) (h9 : V0 (Proc.devRef .tc main_arg9) = w) (h10 : V0 (Proc.devRef .tc main_arg10) = b) :
    StableHlo.after RRun.ops14 V0 (Proc.devRef .tc main_v134) = Gnn.proj x (Gnn.wSlice w 1) (Gnn.bRow b 1) := by
  dsimp only [RRun.ops14]
  after_results_simp
  rw [hx, h9, h10]
  show (addf (Host.dotGeneral dot_S50000x64_S64x64_S50000x64_1_0_0_1_n_n none x
          (shapeCast S64x64 (extractStridedSlice S1x64x64 ![1, 0, 0] w slices_S3x64x64_S1x64x64_1_0_0) shapeCasts_S1x64x64_S64x64))
      (broadcastInDim S50000x64 ![0, 1] bcast_S1x64_S50000x64_0_1
        (broadcastInDim S1x64 ![1] bcast_S64_S1x64_1
          (shapeCast S64 (extractStridedSlice (s := S3x64) S1x64 ![1, 0] b slices_S3x64_S1x64_1_0) shapeCasts_S1x64_S64))) : FVec Ideal S50000x64 .f32) = _
  rw [wSlice1_eq, bRow1_eq, dotN_eq, addRowN_eq]
  rfl

set_option maxHeartbeats 4000000 in
theorem addS1_of (V0 : Valuation τ sig (Elt Ideal)) (a1 : IVec S2x800000 32) (p : Gnn.EArr) (s : Gnn.NArr)
    (h1 : V0 (Proc.devRef .tc main_v1) = srcR a1) (hs : V0 (Proc.devRef .tc main_v134) = s) (hp : V0 (Proc.devRef .tc main_v126) = p) :
    StableHlo.after RRun.ops15 V0 (Proc.devRef .tc main_v142) = Gnn.add p (gathR (F := Ideal) s (srcR a1)) := by
  dsimp only [RRun.ops15]
  after_results_simp
  rw [h1, hs, hp]
  show (addf p (gathR (F := Ideal) s (srcR a1)) : FVec Ideal S800000x64 .f32) = _
  exact addE_eq _ _

set_option maxHeartbeats 4000000 in
theorem projT1_of (V0 : Valuation τ sig (Elt Ideal)) (x : Gnn.NArr) (w : Gnn.Arr3) (b : Gnn.Arr2 3 64)
    (hx : V0 (Proc.devRef .tc main_v118) = x) (h11 : V0 (Proc.devRef .tc main_arg11) = w) (h12 : V0 (Proc.devRef .tc main_arg12) = b) :
    StableHlo.after RRun.ops16 V0 (Proc.devRef .tc main_v150) = Gnn.proj x (Gnn.wSlice w 1) (Gnn.bRow b 1) := by
  dsimp only [RRun.ops16]
  after_results_simp
  rw [hx, h11, h12]
  show (addf (Host.dotGeneral dot_S50000x64_S64x64_S50000x64_1_0_0_1_n_n none x
          (shapeCast S64x64 (extractStridedSlice S1x64x64 ![1, 0, 0] w slices_S3x64x64_S1x64x64_1_0_0) shapeCasts_S1x64x64_S64x64))
      (broadcastInDim S50000x64 ![0, 1] bcast_S1x64_S50000x64_0_1
        (broadcastInDim S1x64 ![1] bcast_S64_S1x64_1
          (shapeCast S64 (extractStridedSlice (s := S3x64) S1x64 ![1, 0] b slices_S3x64_S1x64_1_0) shapeCasts_S1x64_S64))) : FVec Ideal S50000x64 .f32) = _
  rw [wSlice1_eq, bRow1_eq, dotN_eq, addRowN_eq]
  rfl

set_option maxHeartbeats 4000000 in
theorem addT1_of (V0 : Valuation τ sig (Elt Ideal)) (a1 : IVec S2x800000 32) (p : Gnn.EArr) (t : Gnn.NArr)
    (h3 : V0 (Proc.devRef .tc main_v3) = dstR a1) (ht : V0 (Proc.devRef .tc main_v150) = t) (hp : V0 (Proc.devRef .tc main_v142) = p) :
    StableHlo.after RRun.ops17 V0 (Proc.devRef .tc main_v158) = Gnn.add p (gathR (F := Ideal) t (dstR a1)) := by
  dsimp only [RRun.ops17]
  after_results_simp
  rw [h3, ht, hp]
  show (addf p (gathR (F := Ideal) t (dstR a1)) : FVec Ideal S800000x64 .f32) = _
  exact addE_eq _ _

set_option maxHeartbeats 4000000 in
theorem out1_of (V0 : Valuation τ sig (Elt Ideal)) (h : Gnn.EArr) (w : Gnn.Arr3) (b : Gnn.Arr2 3 64)
    (hh : V0 (Proc.devRef .tc main_v158) = h) (h13 : V0 (Proc.devRef .tc main_arg13) = w) (h14 : V0 (Proc.devRef .tc main_arg14) = b) :
    StableHlo.after RRun.ops18 V0 (Proc.devRef .tc main_v167)
      = Gnn.proj (Gnn.relu h) (Gnn.wSlice w 1) (Gnn.bRow b 1) := by
  dsimp only [RRun.ops18]
  after_results_simp
  rw [hh, h13, h14]
  rw [toBuf_self main_v159, ofBuf_self main_v158, ofBuf_self main_call4_v0, toBuf_self main_call4_v0,
    ofBuf_self main_call4_cst, toBuf_self main_call4_cst]
  show (addf (Host.dotGeneral dot_S800000x64_S64x64_S800000x64_1_0_0_1_n_n none
          (maximumf h (broadcastInDim S800000x64 ![] bcast_S_S800000x64 (constant S_ .f32 0x00000000#32)))
          (shapeCast S64x64 (extractStridedSlice S1x64x64 ![1, 0, 0] w slices_S3x64x64_S1x64x64_1_0_0) shapeCasts_S1x64x64_S64x64))
      (broadcastInDim S800000x64 ![0, 1] bcast_S1x64_S800000x64_0_1
        (broadcastInDim S1x64 ![1] bcast_S64_S1x64_1
          (shapeCast S64 (extractStridedSlice (s := S3x64) S1x64 ![1, 0] b slices_S3x64_S1x64_1_0) shapeCasts_S1x64_S64))) : FVec Ideal S800000x64 .f32) = _
  rw [wSlice1_eq, bRow1_eq, reluE_eq, dotE_eq, addRowE_eq]
  rfl

theorem r1_x (hX : RRun.R4 W (Proc.devRef .tc main_v40) = X) (hE : RRun.R10 W (Proc.devRef .tc main_v89) = E) :
    RRun.R13 W (Proc.devRef .tc main_v118) = Gnn.relu (Gnn.xPreR (gSAt W) (sgAt W) (weightsAt W) 1 X E) := by
  have hmsg : StableHlo.after RRun.ops10 (RRun.R10 W) (Proc.devRef .tc main_v103) = Gnn.msgR (gSAt W) (weightsAt W) 1 X E :=
    msg1_of (RRun.R10 W) (W (Proc.devRef .tc main_arg1)) X E (W (Proc.devRef .tc main_arg4)) (W (Proc.devRef .tc main_arg5))
      ((RRun.keep_main_v1_1_10 W).trans (src_at W)) ((RRun.keep_main_v40_4_10 W).trans hX) hE
      (RRun.keep_main_arg4_0_10 W) (RRun.keep_main_arg5_0_10 W)
  have hseg : StableHlo.after RRun.ops11 (RRun.R11 W) (Proc.devRef .tc main_v108)
      = sgAt W (Gnn.msgR (gSAt W) (weightsAt W) 1 X E) :=
    seg1_of (RRun.R11 W) (W (Proc.devRef .tc main_arg1)) _ ((RRun.keep_main_v3_1_11 W).trans (dst_at W))
      ((RRun.keep_main_v11_1_11 W).trans (inv_at W)) hmsg
  show StableHlo.after RRun.ops12 (RRun.R12 W) (Proc.devRef .tc main_v118) = _
  exact act1_of (RRun.R12 W) X _ (W (Proc.devRef .tc main_arg3)) (W (Proc.devRef .tc main_arg6))
    ((RRun.keep_main_v40_4_12 W).trans hX) hseg (RRun.keep_main_arg3_0_12 W) (RRun.keep_main_arg6_0_12 W)

theorem r1_ea (hX : RRun.R4 W (Proc.devRef .tc main_v40) = X) (hE : RRun.R10 W (Proc.devRef .tc main_v89) = E) :
    RRun.R19 W (Proc.devRef .tc main_v167)
      = Gnn.eaNextR (gSAt W) (gDAt W) (weightsAt W) 1 (Gnn.relu (Gnn.xPreR (gSAt W) (sgAt W) (weightsAt W) 1 X E)) E := by
  have hx' := r1_x W X E hX hE
  generalize Gnn.relu (Gnn.xPreR (gSAt W) (sgAt W) (weightsAt W) 1 X E) = X' at hx' ⊢
  have h126 : StableHlo.after RRun.ops13 (RRun.R13 W) (Proc.devRef .tc main_v126)
      = Gnn.proj E (Gnn.wSlice (W (Proc.devRef .tc main_arg7)) 1) (Gnn.bRow (W (Proc.devRef .tc main_arg8)) 1) :=
    edge1_of (RRun.R13 W) E _ _ ((RRun.keep_main_v89_10_13 W).trans hE) (RRun.keep_main_arg7_0_13 W) (RRun.keep_main_arg8_0_13 W)
  have h134 : StableHlo.after RRun.ops14 (RRun.R14 W) (Proc.devRef .tc main_v134)
      = Gnn.proj X' (Gnn.wSlice (W (Proc.devRef .tc main_arg9)) 1) (Gnn.bRow (W (Proc.devRef .tc main_arg10)) 1) :=
    projS1_of (RRun.R14 W) X' _ _ ((RRun.keep_main_v118_13_14 W).trans hx') (RRun.keep_main_arg9_0_14 W) (RRun.keep_main_arg10_0_14 W)
  have h142 : StableHlo.after RRun.ops15 (RRun.R15 W) (Proc.devRef .tc main_v142)
      = Gnn.add (Gnn.proj E (Gnn.wSlice (W (Proc.devRef .tc main_arg7)) 1) (Gnn.bRow (W (Proc.devRef .tc main_arg8)) 1))
          (gSAt W (Gnn.proj X' (Gnn.wSlice (W (Proc.devRef .tc main_arg9)) 1) (Gnn.bRow (W (Proc.devRef .tc main_arg10)) 1))) :=
    addS1_of (RRun.R15 W) (W (Proc.devRef .tc main_arg1)) _ _ ((RRun.keep_main_v1_1_15 W).trans (src_at W)) h134
      ((RRun.keep_main_v126_14_15 W).trans h126)
  have h150 : StableHlo.after RRun.ops16 (RRun.R16 W) (Proc.devRef .tc main_v150)
      = Gnn.proj X' (Gnn.wSlice (W (Proc.devRef .tc main_arg11)) 1) (Gnn.bRow (W (Proc.devRef .tc main_arg12)) 1) :=
    projT1_of (RRun.R16 W) X' _ _ ((RRun.keep_main_v118_13_16 W).trans hx') (RRun.keep_main_arg11_0_16 W) (RRun.keep_main_arg12_0_16 W)
  have h158 : StableHlo.after RRun.ops17 (RRun.R17 W) (Proc.devRef .tc main_v158)
      = Gnn.add (Gnn.add (Gnn.proj E (Gnn.wSlice (W (Proc.devRef .tc main_arg7)) 1) (Gnn.bRow (W (Proc.devRef .tc main_arg8)) 1))
          (gSAt W (Gnn.proj X' (Gnn.wSlice (W (Proc.devRef .tc main_arg9)) 1) (Gnn.bRow (W (Proc.devRef .tc main_arg10)) 1))))
          (gDAt W (Gnn.proj X' (Gnn.wSlice (W (Proc.devRef .tc main_arg11)) 1) (Gnn.bRow (W (Proc.devRef .tc main_arg12)) 1))) :=
    addT1_of (RRun.R17 W) (W (Proc.devRef .tc main_arg1)) _ _ ((RRun.keep_main_v3_1_17 W).trans (dst_at W)) h150
      ((RRun.keep_main_v142_16_17 W).trans h142)
  show StableHlo.after RRun.ops18 (RRun.R18 W) (Proc.devRef .tc main_v167) = _
  exact out1_of (RRun.R18 W) _ (W (Proc.devRef .tc main_arg13)) (W (Proc.devRef .tc main_arg14)) h158
    (RRun.keep_main_arg13_0_18 W) (RRun.keep_main_arg14_0_18 W)

end Cert.ReferenceIdeal.RV

end
-- ==== Proof.RefVal.lean ====
import proofs.«404994_j27599459844666_2_alg».proof.Proof.RefRun
import proofs.«404994_j27599459844666_2_alg».proof.Proof.RefVal0
import proofs.«404994_j27599459844666_2_alg».proof.Proof.RefVal1
import proofs.«404994_j27599459844666_2_alg».proof.Proof.RDefs
import proofs.«404994_j27599459844666_2_alg».proof.Proof.Net
import Idealize.ShloMosaic.PureOps.Ideal.Laws
import Idealize.ShloMosaic.Lib.Pipeline.Value
import Idealize.ShloMosaic.Lib.ValueIdx

noncomputable section

namespace Cert.ReferenceIdeal.RV

open Cert.ReferenceIdeal Cert.ReferenceIdeal.Gen Idealize.ShloMosaic Idealize.ShloMosaic.TcCoe Idealize.SL.Sem Idealize.ShloMosaic.StableHlo Idealize.ShloMosaic.ValueIdx

def weightsR (m : (ℓ : Loc nD τ sig) → Buf (Elt Ideal) ℓ) (c : Dev nD) : Gnn.Weights where
  Wr := m ((c.tc : Thread nD τ).loc main_arg3)
  Wn := m ((c.tc : Thread nD τ).loc main_arg4)
  We := m ((c.tc : Thread nD τ).loc main_arg5)
  b := m ((c.tc : Thread nD τ).loc main_arg6)
  EWe := m ((c.tc : Thread nD τ).loc main_arg7)
  Ebe := m ((c.tc : Thread nD τ).loc main_arg8)
  EWs := m ((c.tc : Thread nD τ).loc main_arg9)
  Ebs := m ((c.tc : Thread nD τ).loc main_arg10)
  EWt := m ((c.tc : Thread nD τ).loc main_arg11)
  Ebt := m ((c.tc : Thread nD τ).loc main_arg12)
  EW1 := m ((c.tc : Thread nD τ).loc main_arg13)
  Eb1 := m ((c.tc : Thread nD τ).loc main_arg14)

variable (m : (ℓ : Loc nD τ sig) → Buf (Elt Ideal) ℓ)

abbrev gSR (c : Dev nD) : Gnn.NArr → Gnn.EArr := fun x => gathR (F := Ideal) x (srcR (m ((c.tc : Thread nD τ).loc main_arg1)))
abbrev gDR (c : Dev nD) : Gnn.NArr → Gnn.EArr := fun x => gathR (F := Ideal) x (dstR (m ((c.tc : Thread nD τ).loc main_arg1)))
abbrev sgR (c : Dev nD) : Gnn.EArr → Gnn.NArr := fun a => segR (F := Ideal) (m ((c.tc : Thread nD τ).loc main_arg1)) a

theorem weightsAt_launch (c : Dev nD) : weightsAt (launchContents m c) = weightsR m c := rfl
theorem gSAt_launch (c : Dev nD) : gSAt (launchContents m c) = gSR m c := rfl
theorem gDAt_launch (c : Dev nD) : gDAt (launchContents m c) = gDR m c := rfl
theorem sgAt_launch (c : Dev nD) : sgAt (launchContents m c) = sgR m c := rfl

theorem x2_at (c : Dev nD) :
    RRun.R13 (F := Ideal) (launchContents m c) (Proc.devRef .tc main_v118)
      = Gnn.x2R (gSR m c) (gDR m c) (sgR m c) (weightsR m c) (m ((c.tc : Thread nD τ).loc main_arg0)) (m ((c.tc : Thread nD τ).loc main_arg2)) := by
  have h := r1_x (launchContents m c) _ _ (r0_x (launchContents m c) (m ((c.tc : Thread nD τ).loc main_arg0)) (m ((c.tc : Thread nD τ).loc main_arg2)) rfl rfl)
    (r0_ea (launchContents m c) (m ((c.tc : Thread nD τ).loc main_arg0)) (m ((c.tc : Thread nD τ).loc main_arg2)) rfl rfl)
  rw [weightsAt_launch, gSAt_launch, gDAt_launch, sgAt_launch] at h
  exact h

theorem ea2_at (c : Dev nD) :
    RRun.R19 (F := Ideal) (launchContents m c) (Proc.devRef .tc main_v167)
      = Gnn.ea2R (gSR m c) (gDR m c) (sgR m c) (weightsR m c) (m ((c.tc : Thread nD τ).loc main_arg0)) (m ((c.tc : Thread nD τ).loc main_arg2)) := by
  have h := r1_ea (launchContents m c) _ _ (r0_x (launchContents m c) (m ((c.tc : Thread nD τ).loc main_arg0)) (m ((c.tc : Thread nD τ).loc main_arg2)) rfl rfl)
    (r0_ea (launchContents m c) (m ((c.tc : Thread nD τ).loc main_arg0)) (m ((c.tc : Thread nD τ).loc main_arg2)) rfl rfl)
  rw [weightsAt_launch, gSAt_launch, gDAt_launch, sgAt_launch] at h
  exact h

theorem out_x (c : Dev nD) :
    RRun.R22 (F := Ideal) (launchContents m c) (Proc.devRef .tc main_v195)
      = Gnn.outXR (gSR m c) (gDR m c) (sgR m c) (weightsR m c) (m ((c.tc : Thread nD τ).loc main_arg0)) (m ((c.tc : Thread nD τ).loc main_arg2)) := by
  have h := r2_x (launchContents m c) _ _ (x2_at m c) (ea2_at m c)
  rw [weightsAt_launch, gSAt_launch, sgAt_launch] at h
  exact h

theorem out_ea (c : Dev nD) :
    RRun.R22 (F := Ideal) (launchContents m c) (Proc.devRef .tc main_v167)
      = Gnn.ea2R (gSR m c) (gDR m c) (sgR m c) (weightsR m c) (m ((c.tc : Thread nD τ).loc main_arg0)) (m ((c.tc : Thread nD τ).loc main_arg2)) := by
  exact r2_ea (launchContents m c) _ (ea2_at m c)

end Cert.ReferenceIdeal.RV

end
-- ==== Proof.LibGatherRows.lean ====
import Idealize.ShloMosaic.PureOps.ShapeOps
import Idealize.ShloMosaic.Lib.ValueIdx

namespace Idealize.ShloMosaic.GatherRows

open Idealize.ShloMosaic Idealize.ShloMosaic.ValueIdx

variable {α : Type}

abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

abbrev rowIdx {R : Nat} (e : Fin R) : (⟨2, ![R, 1]⟩ : Shape).Idx := ix2 e (0 : Fin 1)

section
variable {N R C w : Nat} (wf : GatherDims.WF ⟨2, ![N, C]⟩ ⟨2, ![R, 1]⟩ ⟨2, ![R, C]⟩ [1] [0] [] [0] [] 1 ![1, C])

theorem row_not_kept : (0 : Fin 2) ∉ (rowDims N R C wf).sKept :=
  fun h => ((GatherDims.mem_sKept _ _).mp h).1 (List.mem_singleton.mpr rfl)

theorem col_kept : (1 : Fin 2) ∈ (rowDims N R C wf).sKept :=
  (GatherDims.mem_sKept _ _).mpr ⟨fun h => absurd (congrArg Fin.val (List.mem_singleton.mp h)) Nat.one_ne_zero, List.not_mem_nil⟩

theorem operandIdx_row (idx : IVec ⟨2, ![R, 1]⟩ w) (e : Fin R) (q : Fin C) :
    ((rowDims N R C wf).operandIdx (ix2 e q) idx 0).val = min (idx (rowIdx e)).toInt.toNat (N - 1) := by
  show (rowDims N R C wf).start (ix2 e q) idx 0 + (rowDims N R C wf).batchCoord (ix2 e q) 0
    + (rowDims N R C wf).offCoord (ix2 e q) 0 = _
  rw [GatherDims.batchCoord_eq_zero _ _ _ List.not_mem_nil, GatherDims.offCoord_eq_zero _ _ _ (row_not_kept wf)]
  simp only [Nat.add_zero]
  unfold GatherDims.start
  rw [dif_pos (show (0 : Fin 2) ∈ (rowDims N R C wf).startIndexMap from List.mem_singleton.mpr rfl)]
  have hsi : (rowDims N R C wf).siIdx (ix2 e q) ⟨List.idxOf (0 : Fin 2) (rowDims N R C wf).startIndexMap,
      List.idxOf_lt_length_iff.2 (List.mem_singleton.mpr rfl)⟩ = rowIdx e := by
    funext b; refine Fin.ext ?_
    match b with
    | ⟨0, _⟩ => rfl
    | ⟨1, _⟩ => rfl
  rw [hsi]
  rfl

theorem operandIdx_col (idx : IVec ⟨2, ![R, 1]⟩ w) (e : Fin R) (q : Fin C) :
    ((rowDims N R C wf).operandIdx (ix2 e q) idx 1).val = q.val := by
  show (rowDims N R C wf).start (ix2 e q) idx 1 + (rowDims N R C wf).batchCoord (ix2 e q) 1
    + (rowDims N R C wf).offCoord (ix2 e q) 1 = _
  rw [GatherDims.batchCoord_eq_zero _ _ _ List.not_mem_nil]
  unfold GatherDims.start
  rw [dif_neg (show (1 : Fin 2) ∉ (rowDims N R C wf).startIndexMap from
    fun h => absurd (congrArg Fin.val (List.mem_singleton.mp h)) Nat.one_ne_zero)]
  unfold GatherDims.offCoord
  rw [dif_pos (col_kept wf)]
  simp only [Nat.add_zero, Nat.zero_add]
  rfl

theorem gather_rows_apply (hN : 0 < N) (x : (⟨2, ![N, C]⟩ : Shape).Idx → α) (idx : IVec ⟨2, ![R, 1]⟩ w)
    (e : Fin R) (q : Fin C) :
    Host.gather (rowDims N R C wf) x idx (ix2 e q)
      = x (ix2 ⟨min (idx (rowIdx e)).toInt.toNat (N - 1), by omega⟩ q) := by
  unfold Host.gather
  congr 1
  funext a
  refine Fin.ext ?_
  match a with
  | ⟨0, _⟩ => exact operandIdx_row wf idx e q
  | ⟨1, _⟩ => exact operandIdx_col wf idx e q

theorem gather_rows_apply_of_lt (x : (⟨2, ![N, C]⟩ : Shape).Idx → α) (idx : IVec ⟨2, ![R, 1]⟩ w)
    (e : Fin R) (q : Fin C) (h0 : 0 ≤ (idx (rowIdx e)).toInt) (hlt : (idx (rowIdx e)).toInt < N) :
    Host.gather (rowDims N R C wf) x idx (ix2 e q) = x (ix2 ⟨(idx (rowIdx e)).toInt.toNat, by omega⟩ q) := by
  rw [gather_rows_apply wf (by omega) x idx e q]
  congr 2
  refine Fin.ext ?_
  show min (idx (rowIdx e)).toInt.toNat (N - 1) = (idx (rowIdx e)).toInt.toNat
  omega

end

end Idealize.ShloMosaic.GatherRows
-- ==== Proof.TakeRows.lean ====
import proofs.«404994_j27599459844666_2_alg».proof.Proof.KDefs
import proofs.«404994_j27599459844666_2_alg».proof.Proof.LibGatherRows
import Idealize.ShloMosaic.PureOps.Ideal
import Idealize.ShloMosaic.Lib.ValueIdx
import Idealize.ShloMosaic.Lib.StableHlo.Predicate
import Idealize.ShloMosaic.Lib.ReduceAll
import Idealize.ShloMosaic.Lib.Pipeline.Value

noncomputable section

namespace Cert.KernelIdeal.KV

open Cert.KernelIdeal Cert.KernelIdeal.Gen Idealize.ShloMosaic Idealize.ShloMosaic.TcCoe Idealize.ShloMosaic.ValueIdx

def InRange (idx : IVec S800000 32) : Prop := ∀ e : Fin 800000, 0 ≤ (idx (ix1 e)).toInt ∧ (idx (ix1 e)).toInt < 50000

def rowOf (idx : IVec S800000 32) (h : InRange idx) (e : Fin 800000) : Fin 50000 :=
  ⟨(idx (ix1 e)).toInt.toNat, by have := h e; omega⟩

theorem foldl_andi_of_all {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_of_all f l fun n hn => h n (List.mem_cons_of_mem _ hn)

theorem reduce_andi_of_all {s t : Shape} {axes : List (Fin s.rank)} (x : s.Idx → BitVec 1) (hx : ∀ i, x i = 1#1)
    (h : s.ReducesTo axes t) (hu : 0 < S_.numel) (j : t.Idx) :
    Host.reduce IntOp.andi x (constantI S_ 1 1#1) h hu j = 1#1 := by
  rw [Host.reduce_eq_foldl]
  exact foldl_andi_of_all x _ fun n _ => hx n

theorem wrapK_apply (idx : IVec S800000 32) (h : InRange idx) (e : Fin 800000) : wrapK idx (ix1 e) = idx (ix1 e) := by
  show Scalar.select (IntOp.cmpi .slt (idx (ix1 e)) 0#32) (IntOp.addi (idx (ix1 e)) 50000#32) (idx (ix1 e)) = idx (ix1 e)
  have hc : IntOp.cmpi .slt (idx (ix1 e)) 0#32 = 0#1 := eq_zero_of_ne_one fun hc => by
    have h1 := IntOp.cmpi_slt.mp hc
    rw [show (0#32 : BitVec 32).toInt = 0 from by decide] at h1
    have := (h e).1
    omega
  rw [hc, select_zero]

theorem colK_apply (idx : IVec S800000 32) (h : InRange idx) (e : Fin 800000) (c : Fin 1) :
    colK idx (ix2 e c) = idx (ix1 e) := by
  refine (broadcastInDim_apply _ _ (wrapK idx) (ix2 e c) (ix1 e) fun a => ?_).trans (wrapK_apply idx h e)
  match a with
  | ⟨0, _⟩ => rfl

theorem inRangeK_apply (idx : IVec S800000 32) (h : InRange idx) (e : Fin 800000) : inRangeK idx (ix1 e) = 1#1 := by
  refine reduce_andi_of_all _ (fun i => ?_) _ _ _
  obtain ⟨a, c, rfl⟩ : ∃ a c, i = ix2 a c := ⟨_, _, eq_ix2 i⟩
  show IntOp.andi (IntOp.cmpi .sge (colK idx (ix2 a c)) 0#32) (IntOp.cmpi .sle (colK idx (ix2 a c)) 49999#32) = 1#1
  rw [colK_apply idx h a c, IntOp.andi_eq_one, IntOp.cmpi_sge, IntOp.cmpi_sle,
    show (0#32 : BitVec 32).toInt = 0 from by decide, show (49999#32 : BitVec 32).toInt = 49999 from by decide]
  have := h a
  omega

theorem takeK_eq_gather (x : FVec Ideal S50000x64 .f32) (idx : IVec S800000 32) (h : InRange idx) :
    takeK x idx = Host.gather gather_S50000x64_S800000x1_S800000x64_1_0_n_n_0_1_164 x (colK idx) := by
  funext j
  obtain ⟨e, q, rfl⟩ : ∃ e q, j = ix2 e q := ⟨_, _, eq_ix2 j⟩
  have hm : broadcastInDim S800000x64 ![0] bcast_S800000_S800000x64_0 (inRangeK idx) (ix2 e q) = 1#1 :=
    (broadcastInDim_apply _ _ (inRangeK idx) (ix2 e q) (ix1 e) fun a => by
      match a with
      | ⟨0, _⟩ => rfl).trans (inRangeK_apply idx h e)
  unfold takeK
  rw [select_apply, hm, select_one]

theorem takeK_apply (x : FVec Ideal S50000x64 .f32) (idx : IVec S800000 32) (h : InRange idx) (e : Fin 800000) (q : Fin 64) :
    takeK x idx (ix2 e q) = x (ix2 (rowOf idx h e) q) := by
  rw [takeK_eq_gather x idx h]
  have hc : colK idx (GatherRows.rowIdx e) = idx (ix1 e) := colK_apply idx h e 0
  refine (GatherRows.gather_rows_apply_of_lt gather_S50000x64_S800000x1_S800000x64_1_0_n_n_0_1_164.wf x (colK idx) e q
    (by rw [hc]; exact (h e).1) (by rw [hc]; exact (h e).2)).trans ?_
  congr 2
  refine Fin.ext ?_
  show (colK idx (GatherRows.rowIdx e)).toInt.toNat = (idx (ix1 e)).toInt.toNat
  rw [hc]

end Cert.KernelIdeal.KV

end
-- ==== Proof.PreDecode.lean ====
import proofs.«404994_j27599459844666_2_alg».proof.Proof.TakeRows
import proofs.«404994_j27599459844666_2_alg».proof.Defs
import proofs.«404994_j27599459844666_2_alg».proof.Proof.Gen.Pre_finite_inputs
import Idealize.ShloMosaic.Lib.ReduceAll
import Idealize.ShloMosaic.Lib.StableHlo.Predicate

noncomputable section

namespace Cert.KernelIdeal.KV

open Cert.KernelIdeal Cert.KernelIdeal.Gen Idealize.ShloMosaic Idealize.ShloMosaic.TcCoe Idealize.ShloMosaic.ValueIdx Idealize.SL.Sem

theorem edge_node (m : (ℓ : Loc nD τ sig) → Buf (Elt Ideal) ℓ) (hpre : Cert.Pre_KernelIdeal m) (c : Dev nD)
    (r : Fin 2) (e : Fin 800000) :
    0 ≤ (m ((c.tc : Thread nD τ).loc main_arg1) (ix2 r e)).toInt
      ∧ (m ((c.tc : Thread nD τ).loc main_arg1) (ix2 r e)).toInt < 50000 := by
  have e0 := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4] at e0
  obtain ⟨-, h74⟩ := IntOp.andi_eq_one.mp e0

  haveI : Subsingleton Cert.Pre_finite_inputs.S_.Idx := ⟨fun a b => funext fun d => d.elim0⟩
  have h73 := Host.reduce_andi_all _ _ _ _ _ h74 (ix2 r e)
  obtain ⟨h70, h72⟩ := IntOp.andi_eq_one.mp h73
  have h0 : (0#32 : BitVec 32).toInt ≤ (m ((c.tc : Thread nD τ).loc main_arg1) (ix2 r e)).toInt := IntOp.cmpi_sge.mp h70
  have h5 : (m ((c.tc : Thread nD τ).loc main_arg1) (ix2 r e)).toInt < (50000#32 : BitVec 32).toInt := IntOp.cmpi_slt.mp h72
  rw [show (0#32 : BitVec 32).toInt = 0 from by decide] at h0
  rw [show (50000#32 : BitVec 32).toInt = 50000 from by decide] at h5
  exact ⟨h0, h5⟩

theorem srcK_apply (a1 : IVec S2x800000 32) (e : Fin 800000) : srcK a1 (ix1 e) = a1 (ix2 0 e) := by
  unfold srcK
  refine (shapeCast_apply _ _ (ix1 e) (ix2 (0 : Fin 1) e) ?_).trans
    (extractStridedSlice_apply _ a1 _ (ix2 (0 : Fin 1) e) (ix2 (0 : Fin 2) e) fun a => ?_)
  · rw [Shape.rowMajor_val_two, Shape.rowMajor_val_one]
    show 0 * 800000 + e.val = e.val
    omega
  · match a with
    | ⟨0, _⟩ => rfl
    | ⟨1, _⟩ => show e.val = 0 + e.val; omega

theorem dstK_apply (a1 : IVec S2x800000 32) (e : Fin 800000) : dstK a1 (ix1 e) = a1 (ix2 1 e) := by
  unfold dstK
  refine (shapeCast_apply _ _ (ix1 e) (ix2 (0 : Fin 1) e) ?_).trans
    (extractStridedSlice_apply _ a1 _ (ix2 (0 : Fin 1) e) (ix2 (1 : Fin 2) e) fun a => ?_)
  · rw [Shape.rowMajor_val_two, Shape.rowMajor_val_one]
    show 0 * 800000 + e.val = e.val
    omega
  · match a with
    | ⟨0, _⟩ => rfl
    | ⟨1, _⟩ => show e.val = 0 + e.val; omega

theorem src_inRange (m : (ℓ : Loc nD τ sig) → Buf (Elt Ideal) ℓ) (hpre : Cert.Pre_KernelIdeal m) (c : Dev nD) :
    InRange (srcK (m ((c.tc : Thread nD τ).loc main_arg1))) := by
  intro e
  rw [srcK_apply]
  exact edge_node m hpre c 0 e

theorem dst_inRange (m : (ℓ : Loc nD τ sig) → Buf (Elt Ideal) ℓ) (hpre : Cert.Pre_KernelIdeal m) (c : Dev nD) :
    InRange (dstK (m ((c.tc : Thread nD τ).loc main_arg1))) := by
  intro e
  rw [dstK_apply]
  exact edge_node m hpre c 1 e

end Cert.KernelIdeal.KV

end
-- ==== Proof.Bridge.lean ====
import proofs.«404994_j27599459844666_2_alg».proof.Proof.KVal
import proofs.«404994_j27599459844666_2_alg».proof.Proof.RefVal
import proofs.«404994_j27599459844666_2_alg».proof.Proof.PreDecode

set_option maxRecDepth 16384

noncomputable section

namespace Cert.Bridge

open Idealize.ShloMosaic Idealize.ShloMosaic.TcCoe Idealize.SL.Sem Idealize.ShloMosaic.ValueIdx
open Cert.KernelIdeal.KV Cert.ReferenceIdeal.RV

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem seg_eq (a1 : IVec Cert.KernelIdeal.S2x800000 32) (msg : FVec Ideal Cert.KernelIdeal.S800000x64 .f32) :
    segK (F := Ideal) a1 msg = segR (F := Ideal) a1 msg := rfl

theorem gather_eq (x : FVec Ideal Cert.KernelIdeal.S50000x64 .f32) (idx : IVec Cert.KernelIdeal.S800000 32) :
    Host.gather Cert.KernelIdeal.gather_S50000x64_S800000x1_S800000x64_1_0_n_n_0_1_164 x (colK idx) = gathR (F := Ideal) x idx := rfl

theorem src_eq (a1 : IVec Cert.KernelIdeal.S2x800000 32) : srcK a1 = srcR a1 := rfl
theorem dst_eq (a1 : IVec Cert.KernelIdeal.S2x800000 32) : dstK a1 = dstR a1 := rfl

def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

variable {m m'}
variable {c : Dev Cert.KernelIdeal.nD}

theorem weights_eq (h : Agree m m' c) : weightsR m' c = weightsK m c := by
  obtain ⟨-, -, -, h3, h4, h5, h6, h7, h8, h9, h10, h11, h12, h13, h14⟩ := h
  unfold weightsR weightsK
  rw [h3, h4, h5, h6, h7, h8, h9, h10, h11, h12, h13, h14]

theorem sg_eq (h : Agree m m' c) : sgR m' c = sgK m c := by
  have h1 := h.2.1
  unfold sgR sgK
  rw [h1]
  rfl

theorem gS_eq (hpre : Cert.Pre_KernelIdeal m) (h : Agree m m' c) : gSR m' c = gSK m c := by
  have h1 := h.2.1
  unfold gSR gSK
  rw [h1]
  funext x
  rw [takeK_eq_gather x _ (src_inRange m hpre c)]
  rfl

theorem gD_eq (hpre : Cert.Pre_KernelIdeal m) (h : Agree m m' c) : gDR m' c = gDK m c := by
  have h1 := h.2.1
  unfold gDR gDK
  rw [h1]
  funext x
  rw [takeK_eq_gather x _ (dst_inRange m hpre c)]
  rfl

theorem gS_rows (hpre : Cert.Pre_KernelIdeal m) (a : Gnn.NArr) (w : Gnn.Arr2 64 64) :
    gSK m c (Gnn.mm a w) = Gnn.mm (gSK m c a) w :=
  Gnn.rows_mm (rowOf _ (src_inRange m hpre c)) (gSK m c) (fun a e q => takeK_apply a _ (src_inRange m hpre c) e q) a w

theorem result_x (hpre : Cert.Pre_KernelIdeal m) (h : Agree m m' c) (ρ : Dev Cert.KernelIdeal.nD → PrngReg) :
    Cert.ReferenceIdeal.RRun.R22 (F := Ideal) (StableHlo.launchContents m' c) (Proc.devRef .tc Cert.ReferenceIdeal.main_v195)
      = Cert.KernelIdeal.Gen.W31 m ρ c (Proc.devRef .tc Cert.KernelIdeal.main_v116) := by
  rw [Cert.ReferenceIdeal.RV.out_x m' c, Cert.KernelIdeal.KV.out_x m ρ c, Gnn.outXK_eq (gS_rows hpre),
    gS_eq hpre h, gD_eq hpre h, sg_eq h, weights_eq h, h.1, h.2.2.1]

theorem result_ea (hpre : Cert.Pre_KernelIdeal m) (h : Agree m m' c) (ρ : Dev Cert.KernelIdeal.nD → PrngReg) :
    Cert.ReferenceIdeal.RRun.R22 (F := Ideal) (StableHlo.launchContents m' c) (Proc.devRef .tc Cert.ReferenceIdeal.main_v167)
      = Cert.KernelIdeal.Gen.W31 m ρ c (Proc.devRef .tc Cert.KernelIdeal.main_v97) := by
  rw [Cert.ReferenceIdeal.RV.out_ea m' c, Cert.KernelIdeal.KV.out_ea m ρ c, Gnn.ea2K_eq (gS_rows hpre),
    gS_eq hpre h, gD_eq hpre h, sg_eq h, weights_eq h, h.1, h.2.2.1]

end Cert.Bridge

end
-- ==== Proof.lean ====
import proofs.«404994_j27599459844666_2_alg».proof.Defs
import proofs.«404994_j27599459844666_2_alg».proof.Proof.Gen.Kernel
import proofs.«404994_j27599459844666_2_alg».proof.Proof.Gen.Kernel.Skeleton
import proofs.«404994_j27599459844666_2_alg».proof.Proof.Gen.Kernel.Launch
import proofs.«404994_j27599459844666_2_alg».proof.Proof.Gen.Kernel.Points
import proofs.«404994_j27599459844666_2_alg».proof.Proof.Gen.Kernel.Frame
import proofs.«404994_j27599459844666_2_alg».proof.Proof.Gen.KernelIdeal
import proofs.«404994_j27599459844666_2_alg».proof.Proof.Gen.KernelIdeal.Skeleton
import proofs.«404994_j27599459844666_2_alg».proof.Proof.Gen.KernelIdeal.Launch
import proofs.«404994_j27599459844666_2_alg».proof.Proof.Gen.KernelIdeal.Points
import proofs.«404994_j27599459844666_2_alg».proof.Proof.Gen.KernelIdeal.Frame
import proofs.«404994_j27599459844666_2_alg».proof.Proof.Gen.ReferenceIdeal
import proofs.«404994_j27599459844666_2_alg».proof.Proof.Gen.Pre_finite_inputs
import proofs.«404994_j27599459844666_2_alg».proof.Proof.KernelRun
import proofs.«404994_j27599459844666_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun r h c =>
    ⟨(h c _).trans (Cert.ReferenceIdeal.RRun.keep_main_arg0_0_22 _),
     (h c _).trans (Cert.ReferenceIdeal.RRun.keep_main_arg1_0_22 _),
     (h c _).trans (Cert.ReferenceIdeal.RRun.keep_main_arg2_0_22 _),
     (h c _).trans (Cert.ReferenceIdeal.RRun.keep_main_arg3_0_22 _),
     (h c _).trans (Cert.ReferenceIdeal.RRun.keep_main_arg4_0_22 _),
     (h c _).trans (Cert.ReferenceIdeal.RRun.keep_main_arg5_0_22 _),
     (h c _).trans (Cert.ReferenceIdeal.RRun.keep_main_arg6_0_22 _),
     (h c _).trans (Cert.ReferenceIdeal.RRun.keep_main_arg7_0_22 _),
     (h c _).trans (Cert.ReferenceIdeal.RRun.keep_main_arg8_0_22 _),
     (h c _).trans (Cert.ReferenceIdeal.RRun.keep_main_arg9_0_22 _),
     (h c _).trans (Cert.ReferenceIdeal.RRun.keep_main_arg10_0_22 _),
     (h c _).trans (Cert.ReferenceIdeal.RRun.keep_main_arg11_0_22 _),
     (h c _).trans (Cert.ReferenceIdeal.RRun.keep_main_arg12_0_22 _),
     (h c _).trans (Cert.ReferenceIdeal.RRun.keep_main_arg13_0_22 _),
     (h c _).trans (Cert.ReferenceIdeal.RRun.keep_main_arg14_0_22 _)⟩)
    (Cert.ReferenceIdeal.RRun.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W31 m ρ c (Proc.devRef .tc Cert.KernelIdeal.main_v116),
    fun c => Cert.KernelIdeal.Gen.W31 m ρ c (Proc.devRef .tc Cert.KernelIdeal.main_v97),
    Cert.KernelIdeal.KRun.run (F := Ideal) m ρ, ?_⟩
  refine (θ_run Cert.ReferenceIdeal.defs _ _).mono (fun r h c =>
    ⟨(h c _).trans (Cert.Bridge.result_x hpre (hagree c) ρ),
     (h c _).trans (Cert.Bridge.result_ea hpre (hagree c) ρ),
     (h c _).trans (Cert.ReferenceIdeal.RRun.keep_main_arg0_0_22 _),
     (h c _).trans (Cert.ReferenceIdeal.RRun.keep_main_arg1_0_22 _),
     (h c _).trans (Cert.ReferenceIdeal.RRun.keep_main_arg2_0_22 _),
     (h c _).trans (Cert.ReferenceIdeal.RRun.keep_main_arg3_0_22 _),
     (h c _).trans (Cert.ReferenceIdeal.RRun.keep_main_arg4_0_22 _),
     (h c _).trans (Cert.ReferenceIdeal.RRun.keep_main_arg5_0_22 _),
     (h c _).trans (Cert.ReferenceIdeal.RRun.keep_main_arg6_0_22 _),
     (h c _).trans (Cert.ReferenceIdeal.RRun.keep_main_arg7_0_22 _),
     (h c _).trans (Cert.ReferenceIdeal.RRun.keep_main_arg8_0_22 _),
     (h c _).trans (Cert.ReferenceIdeal.RRun.keep_main_arg9_0_22 _),
     (h c _).trans (Cert.ReferenceIdeal.RRun.keep_main_arg10_0_22 _),
     (h c _).trans (Cert.ReferenceIdeal.RRun.keep_main_arg11_0_22 _),
     (h c _).trans (Cert.ReferenceIdeal.RRun.keep_main_arg12_0_22 _),
     (h c _).trans (Cert.ReferenceIdeal.RRun.keep_main_arg13_0_22 _),
     (h c _).trans (Cert.ReferenceIdeal.RRun.keep_main_arg14_0_22 _)⟩)
    (Cert.ReferenceIdeal.RRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
